-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S1024x1024 : Shape := ⟨2, ![1024, 1024]⟩
abbrev S4096x8192 : Shape := ⟨2, ![4096, 8192]⟩

abbrev nBuf : Space → Nat
  | .hbm => 12
  | .vmem => 42
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .bf16⟩
  | .local _ .vmem, ⟨38, _⟩ => ⟨S1024x1024, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 4, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 4, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  concatenates_S4096x4096_S4096x4096_S4096x8192_d1 : Shape.Concatenates [S4096x4096, S4096x4096] S4096x8192 1
  dot_S1024x1024_S1024x1024_S1024x1024_1_1_0_0_n_n_wf : DotDims.WF S1024x1024 S1024x1024 S1024x1024 [1] [1] [0] [0] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .f32 = 32 ∨ (Rect.block (s := S4096x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .bf16 = 32 ∨ (Rect.block (s := S4096x4096) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .f32 = 32 ∨ (Rect.block (s := S4096x4096) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x4096.size a
  hwx5_1 : ∀ i : grid5.Coords, EltTy.bits .bf16 = 32 ∨ (Rect.block (s := S4096x4096) S1024x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S4096x4096.size a
  hwx5_2 : ∀ i : grid5.Coords, EltTy.bits .f32 = 32 ∨ (Rect.block (s := S4096x4096) S1024x1024.size (cc5_transform_2 i) (hinb5_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg2) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg1) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg2) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x8192 : Shape := ⟨2, ![4096, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  transposes_S4096x4096_S4096x4096_1_0 : S4096x4096.Transposes [1, 0] S4096x4096
  concatenates_S4096x4096_S4096x4096_S4096x8192_d1 : Shape.Concatenates [S4096x4096, S4096x4096] S4096x8192 1
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BlockSum.lean ====
import Mathlib.Algebra.BigOperators.Fin
import Mathlib.Algebra.BigOperators.Group.Finset.Basic

open scoped BigOperators

noncomputable section

namespace Cert.Spec

theorem sum_runs_range {M : Type*} [AddCommMonoid M] (g : ℕ → M) (b n : ℕ) :
    ∑ s ∈ Finset.range n, ∑ j ∈ Finset.range b, g (s * b + j)
      = ∑ k ∈ Finset.range (n * b), g k := by
  induction n with
  | zero => simp
  | succ n ih =>
    rw [Finset.sum_range_succ, ih, Nat.succ_mul, Finset.sum_range_add]

theorem sum_runs_fin {M : Type*} [AddCommMonoid M] (g : ℕ → M) (b n : ℕ) :
    ∑ s ∈ Finset.range n, ∑ j : Fin b, g (s * b + j.val)
      = ∑ k : Fin (n * b), g k.val := by
  rw [← Finset.sum_range (fun k => g k), ← sum_runs_range g b n]
  refine Finset.sum_congr rfl fun s _ => ?_
  exact (Finset.sum_range (fun j => g (s * b + j))).symm

theorem sum_four_runs {M : Type*} [AddCommMonoid M] (g : ℕ → M) :
    (0 : M) + ∑ s ∈ Finset.range (3 + 1), ∑ kk : Fin 1024, g (s * 1024 + kk.val) = ∑ k : Fin 4096, g k.val := by
  rw [zero_add]
  exact sum_runs_fin g 1024 4

theorem sum_four_runs' {M : Type*} [AddCommMonoid M] (g : ℕ → M) :
    (0 : M) + ∑ s ∈ Finset.range (3 + 1), ∑ kk : Fin 1024, g (s * 1024 + 1 * kk.val) = ∑ k : Fin 4096, g k.val := by
  simp only [one_mul]
  exact sum_four_runs g

section Run

variable {α β γ : Type*} (start : α → β → γ) (add : α → β → γ → γ) {N : ℕ} (x : Fin N → α) (w : Fin N → β)

-- A K-blocked product keeps a running sum: the first point of every run of four starts it afresh, a later one adds to it.
def stepSum (n : ℕ) (a : α) (b : β) (s : γ) : γ := if n % 4 = 0 then start a b else add a b s

def runSum : (n : ℕ) → n < N → γ
  | 0, h => start (x ⟨0, h⟩) (w ⟨0, h⟩)
  | n + 1, h => stepSum start add (n + 1) (x ⟨n + 1, h⟩) (w ⟨n + 1, h⟩) (runSum n (Nat.lt_of_succ_lt h))

theorem runSum_step (t : Fin N) :
    runSum start add x w t.val t.isLt
      = stepSum start add t.val (x t) (w t) (runSum start add x w (t.val - 1) (Nat.lt_of_le_of_lt (Nat.sub_le _ _) t.isLt)) := by
  obtain ⟨n, hn⟩ := t
  cases n with
  | zero => exact (if_pos (Nat.zero_mod 4)).symm
  | succ n => rfl

theorem runSum_first (t : Fin N) (h0 : t.val % 4 = 0) : runSum start add x w t.val t.isLt = start (x t) (w t) :=
  (runSum_step start add x w t).trans (if_pos h0)

theorem runSum_next (t : Fin N) (h0 : ¬t.val % 4 = 0) :
    runSum start add x w t.val t.isLt
      = add (x t) (w t) (runSum start add x w (t.val - 1) (Nat.lt_of_le_of_lt (Nat.sub_le _ _) t.isLt)) :=
  (runSum_step start add x w t).trans (if_neg h0)

theorem runSum_congr (u v : ℕ) (hu : u < N) (hv : v < N) (e : u = v) : runSum start add x w u hu = runSum start add x w v hv := by
  subst e; rfl

end Run

end Cert.Spec
-- ==== Proof.Bits.StepRow.lean ====
import proofs.«140595_j18622978196102_1_alg».proof.Proof.Gen.Kernel.Launch
import proofs.«140595_j18622978196102_1_alg».proof.Proof.Gen.Kernel.Skeleton
import proofs.«140595_j18622978196102_1_alg».proof.Proof.Gen.Kernel.Points
import proofs.«140595_j18622978196102_1_alg».proof.Proof.BlockSum
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (stepSum runSum)

variable {F : FTy → Type} [FloatOps F]

local notation "𝕄" => MT nD τ sig Unit (Elt F) ℕ (UR sig nD τ) ℕ

-- The grid is (row block, column block, K block); a point is the first of its run of K blocks, or the last.
abbrev firstK_row (i : grid0.Coords) : Prop := (Scalar.cmpi .ne (Scalar.extui (Scalar.cmpi .eq (BitVec.ofNat 32 (i 2).val) 0#32)) 0#32) = 1#1
abbrev lastK_row (i : grid0.Coords) : Prop := k0_cond2 i = 1#1

theorem firstK_row_iff : ∀ t : Fin cfg0.N, firstK_row (grid0.coords t) ↔ t.val % 4 = 0 :=
  (by decide +kernel : ∀ t : Fin grid0.N, firstK_row (grid0.coords t) ↔ t.val % 4 = 0)
theorem lastK_row_iff : ∀ t : Fin cfg0.N, lastK_row (grid0.coords t) ↔ t.val % 4 = 3 :=
  (by decide +kernel : ∀ t : Fin grid0.N, lastK_row (grid0.coords t) ↔ t.val % 4 = 3)

abbrev blockAll : Rect S1024x1024 := Rect.unit (s := S1024x1024) ![0, 0] S1024x1024.size inb_S1024x1024_S1024x1024_0_0
theorem zeroOff : (![0, 0] : Fin 2 → Nat) = fun _ => 0 := funext fun a => by fin_cases a <;> rfl

theorem coverOne {e : EltTy} (p : Vec F S1024x1024 e) (y : S1024x1024.Idx) :
    ∃ pc ∈ ([⟨blockAll, p⟩] : List (View.Piece (Elt F) S1024x1024 e)), y ∈ pc.1.set :=
  View.cover_of_tiled [⟨blockAll, p⟩] S1024x1024.size (by rfl) y

theorem coverHead {e : EltTy} (p : Vec F S1024x1024 e) (L : List (View.Piece (Elt F) S1024x1024 e)) (y : S1024x1024.Idx) :
    ∃ pc ∈ ((⟨blockAll, p⟩ : View.Piece (Elt F) S1024x1024 e) :: L), y ∈ pc.1.set := by
  obtain ⟨pc, hm, hy⟩ := coverOne p y
  rw [List.mem_singleton] at hm; subst hm
  exact ⟨_, List.mem_cons_self, hy⟩

-- The running sum after a point: the old sum plus the point's block product; at the first point of a run the old sum is the cleared one.
abbrev addBlock_row (x w s : Vec F S1024x1024 .f32) : Vec F S1024x1024 .f32 := k0_pay2 x w s
abbrev startBlock_row (x w : Vec F S1024x1024 .f32) : Vec F S1024x1024 .f32 := k0_pay2 x w (k0_pay1 (F := F))

-- The three step lemmas hold of any body that is this kernel: the regions that run it differ in nothing else.
set_option maxHeartbeats 4000000 in
theorem step_inner_row {body} (hb : body = cc0_matmul_abt_kernel (F := F)) (c : Dev nD) (i : grid0.Coords) (hc0 : ¬firstK_row i) (hc1 : ¬lastK_row i)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (addBlock_row x w s)) -∗ K ⟨⟩))
      ⊢ wp frame (wpE (defs₀ (F := F)) Variants.none c none) E (body i a3 h3 a4 h4 a5 h5 a6 h6) K := by
  subst hb
  simp only [cc0_matmul_abt_kernel_eq_skeleton]; unfold cc0_matmul_abt_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  rw [View.read_writes_eq_canon _ _ _ (coverOne _), View.canon_unit_zero zeroOff]
  simp only [View.readAt_eq_ld, h3.read_unread, h4.read_unread, h6.read_unread, View.ld_unit_zero (S := S1024x1024) zeroOff]

set_option maxHeartbeats 4000000 in
theorem step_first_row {body} (hb : body = cc0_matmul_abt_kernel (F := F)) (c : Dev nD) (i : grid0.Coords) (hc0 : firstK_row i) (hc1 : ¬lastK_row i)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (startBlock_row x w)) -∗ K ⟨⟩))
      ⊢ wp frame (wpE (defs₀ (F := F)) Variants.none c none) E (body i a3 h3 a4 h4 a5 h5 a6 h6) K := by
  subst hb
  simp only [cc0_matmul_abt_kernel_eq_skeleton]; unfold cc0_matmul_abt_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  sl_unfold_words
  rw [View.read_writes_eq_canon _ _ _ (coverHead _ _), View.canon_cons_unit_zero zeroOff]
  simp only [View.readAt_eq_ld, h3.read_unread, h4.read_unread, View.ld_unit_zero (S := S1024x1024) zeroOff,
    View.readCov_unit_zero (S := S1024x1024) _ zeroOff]

set_option maxHeartbeats 4000000 in
theorem step_last_row {body} (hb : body = cc0_matmul_abt_kernel (F := F)) (c : Dev nD) (i : grid0.Coords) (hc0 : ¬firstK_row i) (hc1 : lastK_row i)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare (k0_pay3 (addBlock_row x w s))
            ∗ owns (c : Thread nD τ) a6 fullShare (addBlock_row x w s)) -∗ K ⟨⟩))
      ⊢ wp frame (wpE (defs₀ (F := F)) Variants.none c none) E (body i a3 h3 a4 h4 a5 h5 a6 h6) K := by
  subst hb
  simp only [cc0_matmul_abt_kernel_eq_skeleton]; unfold cc0_matmul_abt_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr
    swap; · iexact HO
    ipureintro
    sl_unfold_words
    rw [View.read_writes_eq_canon _ _ _ (coverOne _), View.canon_unit_zero zeroOff]
    simp only [View.readAt_eq_ld, h3.read_unread, h4.read_unread, h6.read_unread, View.ld_unit_zero (S := S1024x1024) zeroOff,
      View.readCov_unit_zero (S := S1024x1024) _ zeroOff]
  iexists _; isplitr
  swap; · iexact HS
  ipureintro
  sl_unfold_words
  rw [View.read_writes_eq_canon _ _ _ (coverOne _), View.canon_unit_zero zeroOff]
  simp only [View.readAt_eq_ld, h3.read_unread, h4.read_unread, h6.read_unread, View.ld_unit_zero (S := S1024x1024) zeroOff]

-- What a point finds in the scratch: anything if it starts a run (it clears the sum), else the sum the point before left.
def found (c : Dev nD) (a6 : Memref sig .tc .vmem S1024x1024 .f32) (n : ℕ) (s : Vec F S1024x1024 .f32) : sProp 𝕄 :=
  if n % 4 = 0 then iprop(∃ d, owns (c : Thread nD τ) a6 fullShare d) else owns (c : Thread nD τ) a6 fullShare s

-- Between points the scratch holds the running sum after the last point run (before the first point, anything), beside what the region sets aside.
def between (c : Dev nD) (acc : Memref sig .tc .vmem S1024x1024 .f32) (A : sProp 𝕄) {N : ℕ} (sum : (n : ℕ) → n < N → Vec F S1024x1024 .f32) : (n : ℕ) → n ≤ N → sProp 𝕄
  | 0, _ => iprop((∃ d, owns (c : Thread nD τ) acc fullShare d) ∗ A)
  | n + 1, h => iprop(owns (c : Thread nD τ) acc fullShare (sum n h) ∗ A)

theorem between_some (c : Dev nD) (acc : Memref sig .tc .vmem S1024x1024 .f32) (A : sProp 𝕄) {N : ℕ} (sum : (n : ℕ) → n < N → Vec F S1024x1024 .f32) (n : ℕ) (h : n ≤ N) :
    between c acc A sum n h ⊢ iprop((∃ d, owns (c : Thread nD τ) acc fullShare d) ∗ A) := by
  cases n with
  | zero => exact .rfl
  | succ n =>
    show iprop(owns (c : Thread nD τ) acc fullShare (sum n h) ∗ A) ⊢ _
    iintro ⟨H, Hr⟩
    isplitl [H]; · iexists _; iexact H
    iexact Hr

theorem between_found (c : Dev nD) (acc : Memref sig .tc .vmem S1024x1024 .f32) (A : sProp 𝕄) {N : ℕ} (sum : (n : ℕ) → n < N → Vec F S1024x1024 .f32) (t : Fin N) :
    between c acc A sum t.val (Nat.le_of_lt t.isLt)
      ⊢ iprop(found c acc t.val (sum (t.val - 1) (Nat.lt_of_le_of_lt (Nat.sub_le _ _) t.isLt)) ∗ A) := by
  unfold found
  by_cases h0 : t.val % 4 = 0
  · rw [if_pos h0]; exact between_some c acc A sum _ _
  · rw [if_neg h0]
    obtain ⟨n, hn⟩ := t
    cases n with
    | zero => exact absurd (Nat.zero_mod _) h0
    | succ n => exact .rfl

theorem between_left (c : Dev nD) (acc : Memref sig .tc .vmem S1024x1024 .f32) (A : sProp 𝕄) {N : ℕ} (sum : (n : ℕ) → n < N → Vec F S1024x1024 .f32) (t : Fin N) (s : Vec F S1024x1024 .f32) (hs : sum t.val t.isLt = s) :
    iprop(owns (c : Thread nD τ) acc fullShare s ∗ A) ⊢ between c acc A sum (t.val + 1) t.isLt := by
  subst hs; exact .rfl

-- Entering a region its scratch holds anything; leaving it, the running sum is forgotten.
theorem between_enter (c : Dev nD) (acc : Memref sig .tc .vmem S1024x1024 .f32) (rest S : sProp 𝕄)
    (hS : S = iprop((∃ d, owns (c : Thread nD τ) acc fullShare d) ∗ rest)) {N : ℕ} (sum : (n : ℕ) → n < N → Vec F S1024x1024 .f32) :
    iprop((∃ r, prngReg c r) ∗ S) ⊢ between c acc iprop(rest ∗ ∃ r, prngReg c r) sum 0 (Nat.zero_le N) := by
  subst hS
  show _ ⊢ iprop((∃ d, owns (c : Thread nD τ) acc fullShare d) ∗ rest ∗ ∃ r, prngReg c r)
  iintro ⟨Hp, Hs, Hrest⟩
  isplitl [Hs]; · iexact Hs
  isplitl [Hrest]; · iexact Hrest
  iexact Hp

theorem between_leave (c : Dev nD) (acc : Memref sig .tc .vmem S1024x1024 .f32) (rest S : sProp 𝕄)
    (hS : S = iprop((∃ d, owns (c : Thread nD τ) acc fullShare d) ∗ rest)) {N : ℕ} (sum : (n : ℕ) → n < N → Vec F S1024x1024 .f32)
    (n : ℕ) (h : n ≤ N) :
    between c acc iprop(rest ∗ ∃ r, prngReg c r) sum n h ⊢ iprop((∃ r, prngReg c r) ∗ S) := by
  subst hS
  refine (between_some c acc _ sum n h).trans ?_
  iintro ⟨Hs, Hrest, Hp⟩
  isplitl [Hp]; · iexact Hp
  isplitl [Hs]; · iexact Hs
  iexact Hrest

-- The three steps as one: point number n starts a run when n % 4 = 0 and ends one, writing the output block, when n % 4 = 3.
theorem step_row {body} (hb : body = cc0_matmul_abt_kernel (F := F)) (c : Dev nD) (i : grid0.Coords) (n : ℕ)
    (hf : firstK_row i ↔ n % 4 = 0) (hl : lastK_row i ↔ n % 4 = 3)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ found c a6 n s
        ∗ (iprop(owns (c : Thread nD τ) a3 fullShare x ∗ owns (c : Thread nD τ) a4 fullShare w
            ∗ owns (c : Thread nD τ) a5 fullShare (if n % 4 = 3 then k0_pay3 ((stepSum (startBlock_row (F := F)) (addBlock_row (F := F)) n x w s)) else o)
            ∗ owns (c : Thread nD τ) a6 fullShare (stepSum (startBlock_row (F := F)) (addBlock_row (F := F)) n x w s)) -∗ K ⟨⟩))
      ⊢ wp frame (wpE (defs₀ (F := F)) Variants.none c none) E (body i a3 h3 a4 h4 a5 h5 a6 h6) K := by
  unfold found Cert.Spec.stepSum
  by_cases h0 : n % 4 = 0
  · have hn3 : ¬n % 4 = 3 := by omega
    simp only [if_pos h0, if_neg hn3]
    iintro ⟨H0, H1, HO, ⟨%d, HS⟩, Hk⟩
    iapply (step_first_row hb c i (hf.mpr h0) (fun h => hn3 (hl.mp h)) a3 h3 a4 h4 a5 h5 a6 h6 x w d o E K)
    isplitl [H0]; · iexact H0
    isplitl [H1]; · iexact H1
    isplitl [HO]; · iexact HO
    isplitl [HS]; · iexact HS
    iexact Hk
  · simp only [if_neg h0]
    by_cases hn3 : n % 4 = 3
    · simp only [if_pos hn3]
      exact step_last_row hb c i (fun h => h0 (hf.mp h)) (hl.mpr hn3) a3 h3 a4 h4 a5 h5 a6 h6 x w s o E K
    · simp only [if_neg hn3]
      exact step_inner_row hb c i (fun h => h0 (hf.mp h)) (fun h => hn3 (hl.mp h)) a3 h3 a4 h4 a5 h5 a6 h6 x w s o E K

-- One grid point: from the state between points and the three blocks it is handed, to the next state and the blocks as it leaves them.
theorem point_row {body} (hb : body = cc0_matmul_abt_kernel (F := F)) (c : Dev nD) (i : grid0.Coords) (n : ℕ)
    (hf : firstK_row i ↔ n % 4 = 0) (hl : lastK_row i ↔ n % 4 = 3)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) {D0 D1 D2 : Type} (bef : D2 → Vec F S1024x1024 .bf16) (Φin Φout O L2 A : sProp 𝕄)
    (hin : Φin ⊢ iprop(found c a6 n s ∗ A))
    (hout : iprop(owns (c : Thread nD τ) a6 fullShare (stepSum (startBlock_row (F := F)) (addBlock_row (F := F)) n x w s) ∗ A) ⊢ Φout)
    (hL : ∀ d, owns (c : Thread nD τ) a5 fullShare (if n % 4 = 3 then k0_pay3 ((stepSum (startBlock_row (F := F)) (addBlock_row (F := F)) n x w s)) else bef d) ⊢ L2) :
    iprop(Φin ∗ O ∗ (∃ _d : D0, owns (c : Thread nD τ) a3 fullShare x) ∗ (∃ _d : D1, owns (c : Thread nD τ) a4 fullShare w)
        ∗ (∃ d : D2, owns (c : Thread nD τ) a5 fullShare (bef d)))
      ⊢ wp frame (wpE (defs₀ (F := F)) Variants.none c none) Set.univ (body i a3 h3 a4 h4 a5 h5 a6 h6)
          (fun _ => iprop(Φout ∗ O ∗ owns (c : Thread nD τ) a3 fullShare x ∗ owns (c : Thread nD τ) a4 fullShare w ∗ L2)) := by
  iintro ⟨HB, Ho, ⟨%d0, H0⟩, ⟨%d1, H1⟩, ⟨%d2, H2⟩⟩
  ihave HB' := (hin) $$ HB
  icases HB' with ⟨HS, Hr⟩
  iapply (step_row hb c i n hf hl a3 h3 a4 h4 a5 h5 a6 h6 x w s (bef d2) Set.univ _)
  isplitl [H0]; · iexact H0
  isplitl [H1]; · iexact H1
  isplitl [H2]; · iexact H2
  isplitl [HS]; · iexact HS
  iintro ⟨H0, H1, H2, HS⟩
  isplitl [HS Hr]
  · iapply hout
    isplitl [HS]; · iexact HS
    iexact Hr
  isplitl [Ho]; · iexact Ho
  isplitl [H0]; · iexact H0
  isplitl [H1]; · iexact H1
  iapply (hL d2); iexact H2

end Cert.Kernel.Hand
end
-- ==== Proof.Bits.PipeR0.lean ====
import proofs.«140595_j18622978196102_1_alg».proof.Proof.Bits.StepRow

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R0

variable (V : (c : Dev nD) → (b : Ref sig .tc) → Buf (Elt F) ((c : Thread nD τ).loc b))

-- The block of operand w at point t, cut out of its array as the region finds it.
def blk_R0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xBlk_R0 (c : Dev nD) (t : Fin cfg0.N) : Vec F S1024x1024 .f32 := blk_R0 V c 0 t
abbrev wBlk_R0 (c : Dev nD) (t : Fin cfg0.N) : Vec F S1024x1024 .f32 := blk_R0 V c 1 t

abbrev sumAfter_R0 (c : Dev nD) : (n : ℕ) → n < cfg0.N → Vec F S1024x1024 .f32 :=
  runSum (startBlock_row (F := F)) (addBlock_row (F := F)) (xBlk_R0 V c) (wBlk_R0 V c)

abbrev acc_R0 : Memref sig .tc .vmem S1024x1024 .f32 := Memref.whole cc0_scratch0

abbrev aside_R0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

-- What every point leaves: the input blocks as found, the output block at the finished sum where it is written, the running sum between points.
def dat_R0 (c : Dev nD) : Dat τ (Elt F) Unit ℕ (UR sig nD τ) ℕ cfg0 c where
  A w := V c (Pipeline.arrRef spec0 w)
  after w t := match w with
    | ⟨0, _⟩ => blk_R0 V c 0 t
    | ⟨1, _⟩ => blk_R0 V c 1 t
    | ⟨2, _⟩ => k0_pay3 (sumAfter_R0 V c t.val t.isLt)
  Φ t := between c acc_R0 (aside_R0 c) (sumAfter_R0 V c) t.val (Nat.le_of_lt_succ t.isLt)
  q _ := fullShare
  owed _ := 0

theorem dat_R0_A (c : Dev nD) (w : Fin cfg0.W) : (dat_R0 V c).A w = V c (Pipeline.arrRef spec0 w) := by dsimp only [dat_R0]
theorem dat_R0_after0 (c : Dev nD) (t : Fin cfg0.N) : (dat_R0 V c).after 0 t = blk_R0 V c 0 t := by dsimp only [dat_R0]
theorem dat_R0_after1 (c : Dev nD) (t : Fin cfg0.N) : (dat_R0 V c).after 1 t = blk_R0 V c 1 t := by dsimp only [dat_R0]
theorem dat_R0_after2 (c : Dev nD) (t : Fin cfg0.N) : (dat_R0 V c).after 2 t = k0_pay3 (sumAfter_R0 V c t.val t.isLt) := by dsimp only [dat_R0]

theorem dat_R0_before0 (c : Dev nD) (t : Fin cfg0.N) (d) : (dat_R0 V c).before 0 t d = blk_R0 V c 0 t :=
  ((dat_R0 V c).before_in_eq_fetched 0 rfl (fun _ => rfl) (fun _ _ _ => rfl)
    (fun t => by rw [dat_R0_after0]; unfold Dat.blockOf blk_R0; rw [dat_R0_A]; try rfl) t d).trans
    (by unfold Dat.fetched Dat.blockOf blk_R0; rw [dat_R0_A]; try rfl)
theorem dat_R0_before1 (c : Dev nD) (t : Fin cfg0.N) (d) : (dat_R0 V c).before 1 t d = blk_R0 V c 1 t :=
  ((dat_R0 V c).before_in_eq_fetched 1 rfl (fun _ => rfl) (fun _ _ _ => rfl)
    (fun t => by rw [dat_R0_after1]; unfold Dat.blockOf blk_R0; rw [dat_R0_A]; try rfl) t d).trans
    (by unfold Dat.fetched Dat.blockOf blk_R0; rw [dat_R0_A]; try rfl)

theorem live_R0_0 : ∀ t : Fin cfg0.N, cfg0.idle 0 (grid0.coords t) = false := by decide +kernel
theorem live_R0_1 : ∀ t : Fin cfg0.N, cfg0.idle 1 (grid0.coords t) = false := by decide +kernel
theorem idle_R0_2 : ∀ t : Fin cfg0.N, ¬t.val % 4 = 3 → cfg0.idle 2 (grid0.coords t) = true := by decide +kernel
theorem noFlush_R0_2 : ∀ t : Fin cfg0.N, ¬t.val % 4 = 3 → (cfg0.win 2).flush t = false := by decide +kernel
theorem live_R0_2 : ∀ t : Fin cfg0.N, t.val % 4 = 3 → cfg0.idle 2 (grid0.coords t) = false := by decide +kernel

end Data_R0

section Obligation_R0

variable (V : (c : Dev nD) → (b : Ref sig .tc) → Buf (Elt F) ((c : Thread nD τ).loc b))

def handed_R0 (c : Dev nD) (t : Fin cfg0.N) : sProp 𝕄 :=
  iprop((dat_R0 V c).Φ t.castSucc ∗ (dat_R0 V c).owesAt () t.castSucc
    ∗ (∃ d, owns (c : Thread nD τ) (st0_0 t) fullShare ((dat_R0 V c).before 0 t d))
    ∗ (∃ d, owns (c : Thread nD τ) (st0_1 t) fullShare ((dat_R0 V c).before 1 t d))
    ∗ (∃ d, owns (c : Thread nD τ) (st0_2 t) fullShare ((dat_R0 V c).before 2 t d)))

def returned_R0 (c : Dev nD) (t : Fin cfg0.N) : sProp 𝕄 :=
  iprop((dat_R0 V c).Φ t.succ ∗ (dat_R0 V c).owesAt () t.succ
    ∗ (dat_R0 V c).leavesExact 0 t ∗ (dat_R0 V c).leavesExact 1 t ∗ (dat_R0 V c).leavesExact 2 t)

theorem leaves_R0_0 (c : Dev nD) (t : Fin cfg0.N) :
    (dat_R0 V c).leavesExact 0 t = owns (c : Thread nD τ) (st0_0 t) fullShare (blk_R0 V c 0 t) := by
  unfold Dat.leavesExact; rw [live_R0_0 t, dat_R0_after0]
theorem leaves_R0_1 (c : Dev nD) (t : Fin cfg0.N) :
    (dat_R0 V c).leavesExact 1 t = owns (c : Thread nD τ) (st0_1 t) fullShare (blk_R0 V c 1 t) := by
  unfold Dat.leavesExact; rw [live_R0_1 t, dat_R0_after1]

-- The output block after the point: the finished sum where the point ends a run, else as found.
theorem leaves_R0_2 (c : Dev nD) (t : Fin cfg0.N) (d) :
    owns (c : Thread nD τ) (st0_2 t) fullShare (if t.val % 4 = 3 then k0_pay3 ((stepSum (startBlock_row (F := F)) (addBlock_row (F := F)) t.val (xBlk_R0 V c t) (wBlk_R0 V c t) (sumAfter_R0 V c (t.val - 1) (Nat.lt_of_le_of_lt (Nat.sub_le _ _) t.isLt)))) else (dat_R0 V c).before 2 t d)
      ⊢ (dat_R0 V c).leavesExact 2 t := by
  rw [← runSum_step]
  by_cases h3 : t.val % 4 = 3
  · rw [if_pos h3, show (dat_R0 V c).leavesExact 2 t = owns (c : Thread nD τ) (st0_2 t) fullShare ((dat_R0 V c).after 2 t) from by
      unfold Dat.leavesExact; rw [live_R0_2 t h3], dat_R0_after2]
  · rw [if_neg h3, Dat.leavesExact_idle (dat_R0 V c) 2 t (idle_R0_2 t h3) (noFlush_R0_2 t h3)]
    iintro H; iexists _; iexact H

set_option maxHeartbeats 2000000 in
theorem point_R0 (c : Dev nD) (t : Fin cfg0.N) :
    handed_R0 V c t ⊢ wp frame (wpE (defs₀ (F := F)) Variants.none c none) Set.univ (bodyAt0 t) (fun _ => returned_R0 V c t) := by
  unfold handed_R0 returned_R0 bodyAt0
  simp only [dat_R0_before0, dat_R0_before1, leaves_R0_0, leaves_R0_1]
  exact point_row (body := cc0_matmul_abt_kernel) rfl c (grid0.coords t) t.val (firstK_row_iff t) (lastK_row_iff t) _ _ _ _ _ _ _ _
    (xBlk_R0 V c t) (wBlk_R0 V c t) (sumAfter_R0 V c (t.val - 1) (Nat.lt_of_le_of_lt (Nat.sub_le _ _) t.isLt))
    (fun d => (dat_R0 V c).before 2 t d) _ _ _ _ (aside_R0 c)
    (between_found c acc_R0 (aside_R0 c) (sumAfter_R0 V c) t)
    (between_left c acc_R0 (aside_R0 c) (sumAfter_R0 V c) t _ (runSum_step _ _ _ _ t))
    (fun d => leaves_R0_2 V c t d)

theorem body_R0 (c : Dev nD) : BodyObligation (dat_R0 (F := F) V c) (defs₀ (F := F)) Variants.none () Set.univ := fun t => by
  rw [bigSep_W0, bigSep_W0]
  exact point_R0 V c t

end Obligation_R0

end Cert.Kernel.Hand
end
-- ==== Proof.Bits.PipeR1.lean ====
import proofs.«140595_j18622978196102_1_alg».proof.Proof.Bits.StepRow

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R1

variable (V : (c : Dev nD) → (b : Ref sig .tc) → Buf (Elt F) ((c : Thread nD τ).loc b))

-- The block of operand w at point t, cut out of its array as the region finds it.
def blk_R1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xBlk_R1 (c : Dev nD) (t : Fin cfg1.N) : Vec F S1024x1024 .f32 := blk_R1 V c 0 t
abbrev wBlk_R1 (c : Dev nD) (t : Fin cfg1.N) : Vec F S1024x1024 .f32 := blk_R1 V c 1 t

abbrev sumAfter_R1 (c : Dev nD) : (n : ℕ) → n < cfg1.N → Vec F S1024x1024 .f32 :=
  runSum (startBlock_row (F := F)) (addBlock_row (F := F)) (xBlk_R1 V c) (wBlk_R1 V c)

abbrev acc_R1 : Memref sig .tc .vmem S1024x1024 .f32 := Memref.whole cc1_scratch0

abbrev aside_R1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

-- What every point leaves: the input blocks as found, the output block at the finished sum where it is written, the running sum between points.
def dat_R1 (c : Dev nD) : Dat τ (Elt F) Unit ℕ (UR sig nD τ) ℕ cfg1 c where
  A w := V c (Pipeline.arrRef spec1 w)
  after w t := match w with
    | ⟨0, _⟩ => blk_R1 V c 0 t
    | ⟨1, _⟩ => blk_R1 V c 1 t
    | ⟨2, _⟩ => k0_pay3 (sumAfter_R1 V c t.val t.isLt)
  Φ t := between c acc_R1 (aside_R1 c) (sumAfter_R1 V c) t.val (Nat.le_of_lt_succ t.isLt)
  q _ := fullShare
  owed _ := 0

theorem dat_R1_A (c : Dev nD) (w : Fin cfg1.W) : (dat_R1 V c).A w = V c (Pipeline.arrRef spec1 w) := by dsimp only [dat_R1]
theorem dat_R1_after0 (c : Dev nD) (t : Fin cfg1.N) : (dat_R1 V c).after 0 t = blk_R1 V c 0 t := by dsimp only [dat_R1]
theorem dat_R1_after1 (c : Dev nD) (t : Fin cfg1.N) : (dat_R1 V c).after 1 t = blk_R1 V c 1 t := by dsimp only [dat_R1]
theorem dat_R1_after2 (c : Dev nD) (t : Fin cfg1.N) : (dat_R1 V c).after 2 t = k0_pay3 (sumAfter_R1 V c t.val t.isLt) := by dsimp only [dat_R1]

theorem dat_R1_before0 (c : Dev nD) (t : Fin cfg1.N) (d) : (dat_R1 V c).before 0 t d = blk_R1 V c 0 t :=
  ((dat_R1 V c).before_in_eq_fetched 0 rfl (fun _ => rfl) (fun _ _ _ => rfl)
    (fun t => by rw [dat_R1_after0]; unfold Dat.blockOf blk_R1; rw [dat_R1_A]; try rfl) t d).trans
    (by unfold Dat.fetched Dat.blockOf blk_R1; rw [dat_R1_A]; try rfl)
theorem dat_R1_before1 (c : Dev nD) (t : Fin cfg1.N) (d) : (dat_R1 V c).before 1 t d = blk_R1 V c 1 t :=
  ((dat_R1 V c).before_in_eq_fetched 1 rfl (fun _ => rfl) (fun _ _ _ => rfl)
    (fun t => by rw [dat_R1_after1]; unfold Dat.blockOf blk_R1; rw [dat_R1_A]; try rfl) t d).trans
    (by unfold Dat.fetched Dat.blockOf blk_R1; rw [dat_R1_A]; try rfl)

theorem live_R1_0 : ∀ t : Fin cfg1.N, cfg1.idle 0 (grid1.coords t) = false := by decide +kernel
theorem live_R1_1 : ∀ t : Fin cfg1.N, cfg1.idle 1 (grid1.coords t) = false := by decide +kernel
theorem idle_R1_2 : ∀ t : Fin cfg1.N, ¬t.val % 4 = 3 → cfg1.idle 2 (grid1.coords t) = true := by decide +kernel
theorem noFlush_R1_2 : ∀ t : Fin cfg1.N, ¬t.val % 4 = 3 → (cfg1.win 2).flush t = false := by decide +kernel
theorem live_R1_2 : ∀ t : Fin cfg1.N, t.val % 4 = 3 → cfg1.idle 2 (grid1.coords t) = false := by decide +kernel

end Data_R1

section Obligation_R1

variable (V : (c : Dev nD) → (b : Ref sig .tc) → Buf (Elt F) ((c : Thread nD τ).loc b))

def handed_R1 (c : Dev nD) (t : Fin cfg1.N) : sProp 𝕄 :=
  iprop((dat_R1 V c).Φ t.castSucc ∗ (dat_R1 V c).owesAt () t.castSucc
    ∗ (∃ d, owns (c : Thread nD τ) (st1_0 t) fullShare ((dat_R1 V c).before 0 t d))
    ∗ (∃ d, owns (c : Thread nD τ) (st1_1 t) fullShare ((dat_R1 V c).before 1 t d))
    ∗ (∃ d, owns (c : Thread nD τ) (st1_2 t) fullShare ((dat_R1 V c).before 2 t d)))

def returned_R1 (c : Dev nD) (t : Fin cfg1.N) : sProp 𝕄 :=
  iprop((dat_R1 V c).Φ t.succ ∗ (dat_R1 V c).owesAt () t.succ
    ∗ (dat_R1 V c).leavesExact 0 t ∗ (dat_R1 V c).leavesExact 1 t ∗ (dat_R1 V c).leavesExact 2 t)

theorem leaves_R1_0 (c : Dev nD) (t : Fin cfg1.N) :
    (dat_R1 V c).leavesExact 0 t = owns (c : Thread nD τ) (st1_0 t) fullShare (blk_R1 V c 0 t) := by
  unfold Dat.leavesExact; rw [live_R1_0 t, dat_R1_after0]
theorem leaves_R1_1 (c : Dev nD) (t : Fin cfg1.N) :
    (dat_R1 V c).leavesExact 1 t = owns (c : Thread nD τ) (st1_1 t) fullShare (blk_R1 V c 1 t) := by
  unfold Dat.leavesExact; rw [live_R1_1 t, dat_R1_after1]

-- The output block after the point: the finished sum where the point ends a run, else as found.
theorem leaves_R1_2 (c : Dev nD) (t : Fin cfg1.N) (d) :
    owns (c : Thread nD τ) (st1_2 t) fullShare (if t.val % 4 = 3 then k0_pay3 ((stepSum (startBlock_row (F := F)) (addBlock_row (F := F)) t.val (xBlk_R1 V c t) (wBlk_R1 V c t) (sumAfter_R1 V c (t.val - 1) (Nat.lt_of_le_of_lt (Nat.sub_le _ _) t.isLt)))) else (dat_R1 V c).before 2 t d)
      ⊢ (dat_R1 V c).leavesExact 2 t := by
  rw [← runSum_step]
  by_cases h3 : t.val % 4 = 3
  · rw [if_pos h3, show (dat_R1 V c).leavesExact 2 t = owns (c : Thread nD τ) (st1_2 t) fullShare ((dat_R1 V c).after 2 t) from by
      unfold Dat.leavesExact; rw [live_R1_2 t h3], dat_R1_after2]
  · rw [if_neg h3, Dat.leavesExact_idle (dat_R1 V c) 2 t (idle_R1_2 t h3) (noFlush_R1_2 t h3)]
    iintro H; iexists _; iexact H

set_option maxHeartbeats 2000000 in
theorem point_R1 (c : Dev nD) (t : Fin cfg1.N) :
    handed_R1 V c t ⊢ wp frame (wpE (defs₀ (F := F)) Variants.none c none) Set.univ (bodyAt1 t) (fun _ => returned_R1 V c t) := by
  unfold handed_R1 returned_R1 bodyAt1
  simp only [dat_R1_before0, dat_R1_before1, leaves_R1_0, leaves_R1_1]
  exact point_row (body := cc1_matmul_abt_kernel) rfl c (grid1.coords t) t.val (firstK_row_iff t) (lastK_row_iff t) _ _ _ _ _ _ _ _
    (xBlk_R1 V c t) (wBlk_R1 V c t) (sumAfter_R1 V c (t.val - 1) (Nat.lt_of_le_of_lt (Nat.sub_le _ _) t.isLt))
    (fun d => (dat_R1 V c).before 2 t d) _ _ _ _ (aside_R1 c)
    (between_found c acc_R1 (aside_R1 c) (sumAfter_R1 V c) t)
    (between_left c acc_R1 (aside_R1 c) (sumAfter_R1 V c) t _ (runSum_step _ _ _ _ t))
    (fun d => leaves_R1_2 V c t d)

theorem body_R1 (c : Dev nD) : BodyObligation (dat_R1 (F := F) V c) (defs₀ (F := F)) Variants.none () Set.univ := fun t => by
  rw [bigSep_W1, bigSep_W1]
  exact point_R1 V c t

end Obligation_R1

end Cert.Kernel.Hand
end
-- ==== Proof.Bits.StepCol.lean ====
import proofs.«140595_j18622978196102_1_alg».proof.Proof.Bits.StepRow

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (stepSum runSum)

variable {F : FTy → Type} [FloatOps F]

local notation "𝕄" => MT nD τ sig Unit (Elt F) ℕ (UR sig nD τ) ℕ

-- The grid is (row block, column block, K block); a point is the first of its run of K blocks, or the last.
abbrev firstK_col (i : grid2.Coords) : Prop := (Scalar.cmpi .ne (Scalar.extui (Scalar.cmpi .eq (BitVec.ofNat 32 (i 2).val) 0#32)) 0#32) = 1#1
abbrev lastK_col (i : grid2.Coords) : Prop := k2_cond2 i = 1#1

theorem firstK_col_iff : ∀ t : Fin cfg2.N, firstK_col (grid2.coords t) ↔ t.val % 4 = 0 :=
  (by decide +kernel : ∀ t : Fin grid2.N, firstK_col (grid2.coords t) ↔ t.val % 4 = 0)
theorem lastK_col_iff : ∀ t : Fin cfg2.N, lastK_col (grid2.coords t) ↔ t.val % 4 = 3 :=
  (by decide +kernel : ∀ t : Fin grid2.N, lastK_col (grid2.coords t) ↔ t.val % 4 = 3)

-- The running sum after a point: the old sum plus the point's block product; at the first point of a run the old sum is the cleared one.
abbrev addBlock_col (x : Vec F S1024x1024 .f32) (w : Vec F S1024x1024 .bf16) (s : Vec F S1024x1024 .f32) : Vec F S1024x1024 .f32 := k2_pay2 x w s
abbrev startBlock_col (x : Vec F S1024x1024 .f32) (w : Vec F S1024x1024 .bf16) : Vec F S1024x1024 .f32 := k2_pay2 x w (k2_pay1 (F := F))

-- The three step lemmas hold of any body that is this kernel: the regions that run it differ in nothing else.
set_option maxHeartbeats 4000000 in
theorem step_inner_col {body} (hb : body = cc2_matmul_atb_kernel (F := F)) (c : Dev nD) (i : grid2.Coords) (hc0 : ¬firstK_col i) (hc1 : ¬lastK_col i)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (addBlock_col x w s)) -∗ K ⟨⟩))
      ⊢ wp frame (wpE (defs₀ (F := F)) Variants.none c none) E (body i a3 h3 a4 h4 a5 h5 a6 h6) K := by
  subst hb
  simp only [cc2_matmul_atb_kernel_eq_skeleton]; unfold cc2_matmul_atb_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  rw [View.read_writes_eq_canon _ _ _ (coverOne _), View.canon_unit_zero zeroOff]
  simp only [View.readAt_eq_ld, h3.read_unread, h4.read_unread, h6.read_unread, View.ld_unit_zero (S := S1024x1024) zeroOff]

set_option maxHeartbeats 4000000 in
theorem step_first_col {body} (hb : body = cc2_matmul_atb_kernel (F := F)) (c : Dev nD) (i : grid2.Coords) (hc0 : firstK_col i) (hc1 : ¬lastK_col i)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (startBlock_col x w)) -∗ K ⟨⟩))
      ⊢ wp frame (wpE (defs₀ (F := F)) Variants.none c none) E (body i a3 h3 a4 h4 a5 h5 a6 h6) K := by
  subst hb
  simp only [cc2_matmul_atb_kernel_eq_skeleton]; unfold cc2_matmul_atb_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  sl_unfold_words
  rw [View.read_writes_eq_canon _ _ _ (coverHead _ _), View.canon_cons_unit_zero zeroOff]
  simp only [View.readAt_eq_ld, h3.read_unread, h4.read_unread, View.ld_unit_zero (S := S1024x1024) zeroOff,
    View.readCov_unit_zero (S := S1024x1024) _ zeroOff]

set_option maxHeartbeats 4000000 in
theorem step_last_col {body} (hb : body = cc2_matmul_atb_kernel (F := F)) (c : Dev nD) (i : grid2.Coords) (hc0 : ¬firstK_col i) (hc1 : lastK_col i)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare (addBlock_col x w s)
            ∗ owns (c : Thread nD τ) a6 fullShare (addBlock_col x w s)) -∗ K ⟨⟩))
      ⊢ wp frame (wpE (defs₀ (F := F)) Variants.none c none) E (body i a3 h3 a4 h4 a5 h5 a6 h6) K := by
  subst hb
  simp only [cc2_matmul_atb_kernel_eq_skeleton]; unfold cc2_matmul_atb_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr
    swap; · iexact HO
    ipureintro
    sl_unfold_words
    rw [View.read_writes_eq_canon _ _ _ (coverOne _), View.canon_unit_zero zeroOff]
    simp only [View.readAt_eq_ld, h3.read_unread, h4.read_unread, h6.read_unread, View.ld_unit_zero (S := S1024x1024) zeroOff,
      View.readCov_unit_zero (S := S1024x1024) _ zeroOff]
  iexists _; isplitr
  swap; · iexact HS
  ipureintro
  sl_unfold_words
  rw [View.read_writes_eq_canon _ _ _ (coverOne _), View.canon_unit_zero zeroOff]
  simp only [View.readAt_eq_ld, h3.read_unread, h4.read_unread, h6.read_unread, View.ld_unit_zero (S := S1024x1024) zeroOff]

-- The three steps as one: point number n starts a run when n % 4 = 0 and ends one, writing the output block, when n % 4 = 3.
theorem step_col {body} (hb : body = cc2_matmul_atb_kernel (F := F)) (c : Dev nD) (i : grid2.Coords) (n : ℕ)
    (hf : firstK_col i ↔ n % 4 = 0) (hl : lastK_col i ↔ n % 4 = 3)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ found c a6 n s
        ∗ (iprop(owns (c : Thread nD τ) a3 fullShare x ∗ owns (c : Thread nD τ) a4 fullShare w
            ∗ owns (c : Thread nD τ) a5 fullShare (if n % 4 = 3 then (stepSum (startBlock_col (F := F)) (addBlock_col (F := F)) n x w s) else o)
            ∗ owns (c : Thread nD τ) a6 fullShare (stepSum (startBlock_col (F := F)) (addBlock_col (F := F)) n x w s)) -∗ K ⟨⟩))
      ⊢ wp frame (wpE (defs₀ (F := F)) Variants.none c none) E (body i a3 h3 a4 h4 a5 h5 a6 h6) K := by
  unfold found Cert.Spec.stepSum
  by_cases h0 : n % 4 = 0
  · have hn3 : ¬n % 4 = 3 := by omega
    simp only [if_pos h0, if_neg hn3]
    iintro ⟨H0, H1, HO, ⟨%d, HS⟩, Hk⟩
    iapply (step_first_col hb c i (hf.mpr h0) (fun h => hn3 (hl.mp h)) a3 h3 a4 h4 a5 h5 a6 h6 x w d o E K)
    isplitl [H0]; · iexact H0
    isplitl [H1]; · iexact H1
    isplitl [HO]; · iexact HO
    isplitl [HS]; · iexact HS
    iexact Hk
  · simp only [if_neg h0]
    by_cases hn3 : n % 4 = 3
    · simp only [if_pos hn3]
      exact step_last_col hb c i (fun h => h0 (hf.mp h)) (hl.mpr hn3) a3 h3 a4 h4 a5 h5 a6 h6 x w s o E K
    · simp only [if_neg hn3]
      exact step_inner_col hb c i (fun h => h0 (hf.mp h)) (fun h => hn3 (hl.mp h)) a3 h3 a4 h4 a5 h5 a6 h6 x w s o E K

-- One grid point: from the state between points and the three blocks it is handed, to the next state and the blocks as it leaves them.
theorem point_col {body} (hb : body = cc2_matmul_atb_kernel (F := F)) (c : Dev nD) (i : grid2.Coords) (n : ℕ)
    (hf : firstK_col i ↔ n % 4 = 0) (hl : lastK_col i ↔ n % 4 = 3)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) {D0 D1 D2 : Type} (bef : D2 → Vec F S1024x1024 .f32) (Φin Φout O L2 A : sProp 𝕄)
    (hin : Φin ⊢ iprop(found c a6 n s ∗ A))
    (hout : iprop(owns (c : Thread nD τ) a6 fullShare (stepSum (startBlock_col (F := F)) (addBlock_col (F := F)) n x w s) ∗ A) ⊢ Φout)
    (hL : ∀ d, owns (c : Thread nD τ) a5 fullShare (if n % 4 = 3 then (stepSum (startBlock_col (F := F)) (addBlock_col (F := F)) n x w s) else bef d) ⊢ L2) :
    iprop(Φin ∗ O ∗ (∃ _d : D0, owns (c : Thread nD τ) a3 fullShare x) ∗ (∃ _d : D1, owns (c : Thread nD τ) a4 fullShare w)
        ∗ (∃ d : D2, owns (c : Thread nD τ) a5 fullShare (bef d)))
      ⊢ wp frame (wpE (defs₀ (F := F)) Variants.none c none) Set.univ (body i a3 h3 a4 h4 a5 h5 a6 h6)
          (fun _ => iprop(Φout ∗ O ∗ owns (c : Thread nD τ) a3 fullShare x ∗ owns (c : Thread nD τ) a4 fullShare w ∗ L2)) := by
  iintro ⟨HB, Ho, ⟨%d0, H0⟩, ⟨%d1, H1⟩, ⟨%d2, H2⟩⟩
  ihave HB' := (hin) $$ HB
  icases HB' with ⟨HS, Hr⟩
  iapply (step_col hb c i n hf hl a3 h3 a4 h4 a5 h5 a6 h6 x w s (bef d2) Set.univ _)
  isplitl [H0]; · iexact H0
  isplitl [H1]; · iexact H1
  isplitl [H2]; · iexact H2
  isplitl [HS]; · iexact HS
  iintro ⟨H0, H1, H2, HS⟩
  isplitl [HS Hr]
  · iapply hout
    isplitl [HS]; · iexact HS
    iexact Hr
  isplitl [Ho]; · iexact Ho
  isplitl [H0]; · iexact H0
  isplitl [H1]; · iexact H1
  iapply (hL d2); iexact H2

end Cert.Kernel.Hand
end
-- ==== Proof.Bits.PipeR2.lean ====
import proofs.«140595_j18622978196102_1_alg».proof.Proof.Bits.StepCol

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R2

variable (V : (c : Dev nD) → (b : Ref sig .tc) → Buf (Elt F) ((c : Thread nD τ).loc b))

-- The block of operand w at point t, cut out of its array as the region finds it.
def blk_R2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xBlk_R2 (c : Dev nD) (t : Fin cfg2.N) : Vec F S1024x1024 .f32 := blk_R2 V c 0 t
abbrev wBlk_R2 (c : Dev nD) (t : Fin cfg2.N) : Vec F S1024x1024 .bf16 := blk_R2 V c 1 t

abbrev sumAfter_R2 (c : Dev nD) : (n : ℕ) → n < cfg2.N → Vec F S1024x1024 .f32 :=
  runSum (startBlock_col (F := F)) (addBlock_col (F := F)) (xBlk_R2 V c) (wBlk_R2 V c)

abbrev acc_R2 : Memref sig .tc .vmem S1024x1024 .f32 := Memref.whole cc2_scratch0

abbrev aside_R2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

-- What every point leaves: the input blocks as found, the output block at the finished sum where it is written, the running sum between points.
def dat_R2 (c : Dev nD) : Dat τ (Elt F) Unit ℕ (UR sig nD τ) ℕ cfg2 c where
  A w := V c (Pipeline.arrRef spec2 w)
  after w t := match w with
    | ⟨0, _⟩ => blk_R2 V c 0 t
    | ⟨1, _⟩ => blk_R2 V c 1 t
    | ⟨2, _⟩ => sumAfter_R2 V c t.val t.isLt
  Φ t := between c acc_R2 (aside_R2 c) (sumAfter_R2 V c) t.val (Nat.le_of_lt_succ t.isLt)
  q _ := fullShare
  owed _ := 0

theorem dat_R2_A (c : Dev nD) (w : Fin cfg2.W) : (dat_R2 V c).A w = V c (Pipeline.arrRef spec2 w) := by dsimp only [dat_R2]
theorem dat_R2_after0 (c : Dev nD) (t : Fin cfg2.N) : (dat_R2 V c).after 0 t = blk_R2 V c 0 t := by dsimp only [dat_R2]
theorem dat_R2_after1 (c : Dev nD) (t : Fin cfg2.N) : (dat_R2 V c).after 1 t = blk_R2 V c 1 t := by dsimp only [dat_R2]
theorem dat_R2_after2 (c : Dev nD) (t : Fin cfg2.N) : (dat_R2 V c).after 2 t = sumAfter_R2 V c t.val t.isLt := by dsimp only [dat_R2]

theorem dat_R2_before0 (c : Dev nD) (t : Fin cfg2.N) (d) : (dat_R2 V c).before 0 t d = blk_R2 V c 0 t :=
  ((dat_R2 V c).before_in_eq_fetched 0 rfl (fun _ => rfl) (fun _ _ _ => rfl)
    (fun t => by rw [dat_R2_after0]; unfold Dat.blockOf blk_R2; rw [dat_R2_A]; try rfl) t d).trans
    (by unfold Dat.fetched Dat.blockOf blk_R2; rw [dat_R2_A]; try rfl)
theorem dat_R2_before1 (c : Dev nD) (t : Fin cfg2.N) (d) : (dat_R2 V c).before 1 t d = blk_R2 V c 1 t :=
  ((dat_R2 V c).before_in_eq_fetched 1 rfl (fun _ => rfl) (fun _ _ _ => rfl)
    (fun t => by rw [dat_R2_after1]; unfold Dat.blockOf blk_R2; rw [dat_R2_A]; try rfl) t d).trans
    (by unfold Dat.fetched Dat.blockOf blk_R2; rw [dat_R2_A]; try rfl)

theorem live_R2_0 : ∀ t : Fin cfg2.N, cfg2.idle 0 (grid2.coords t) = false := by decide +kernel
theorem live_R2_1 : ∀ t : Fin cfg2.N, cfg2.idle 1 (grid2.coords t) = false := by decide +kernel
theorem idle_R2_2 : ∀ t : Fin cfg2.N, ¬t.val % 4 = 3 → cfg2.idle 2 (grid2.coords t) = true := by decide +kernel
theorem noFlush_R2_2 : ∀ t : Fin cfg2.N, ¬t.val % 4 = 3 → (cfg2.win 2).flush t = false := by decide +kernel
theorem live_R2_2 : ∀ t : Fin cfg2.N, t.val % 4 = 3 → cfg2.idle 2 (grid2.coords t) = false := by decide +kernel

end Data_R2

section Obligation_R2

variable (V : (c : Dev nD) → (b : Ref sig .tc) → Buf (Elt F) ((c : Thread nD τ).loc b))

def handed_R2 (c : Dev nD) (t : Fin cfg2.N) : sProp 𝕄 :=
  iprop((dat_R2 V c).Φ t.castSucc ∗ (dat_R2 V c).owesAt () t.castSucc
    ∗ (∃ d, owns (c : Thread nD τ) (st2_0 t) fullShare ((dat_R2 V c).before 0 t d))
    ∗ (∃ d, owns (c : Thread nD τ) (st2_1 t) fullShare ((dat_R2 V c).before 1 t d))
    ∗ (∃ d, owns (c : Thread nD τ) (st2_2 t) fullShare ((dat_R2 V c).before 2 t d)))

def returned_R2 (c : Dev nD) (t : Fin cfg2.N) : sProp 𝕄 :=
  iprop((dat_R2 V c).Φ t.succ ∗ (dat_R2 V c).owesAt () t.succ
    ∗ (dat_R2 V c).leavesExact 0 t ∗ (dat_R2 V c).leavesExact 1 t ∗ (dat_R2 V c).leavesExact 2 t)

theorem leaves_R2_0 (c : Dev nD) (t : Fin cfg2.N) :
    (dat_R2 V c).leavesExact 0 t = owns (c : Thread nD τ) (st2_0 t) fullShare (blk_R2 V c 0 t) := by
  unfold Dat.leavesExact; rw [live_R2_0 t, dat_R2_after0]
theorem leaves_R2_1 (c : Dev nD) (t : Fin cfg2.N) :
    (dat_R2 V c).leavesExact 1 t = owns (c : Thread nD τ) (st2_1 t) fullShare (blk_R2 V c 1 t) := by
  unfold Dat.leavesExact; rw [live_R2_1 t, dat_R2_after1]

-- The output block after the point: the finished sum where the point ends a run, else as found.
theorem leaves_R2_2 (c : Dev nD) (t : Fin cfg2.N) (d) :
    owns (c : Thread nD τ) (st2_2 t) fullShare (if t.val % 4 = 3 then (stepSum (startBlock_col (F := F)) (addBlock_col (F := F)) t.val (xBlk_R2 V c t) (wBlk_R2 V c t) (sumAfter_R2 V c (t.val - 1) (Nat.lt_of_le_of_lt (Nat.sub_le _ _) t.isLt))) else (dat_R2 V c).before 2 t d)
      ⊢ (dat_R2 V c).leavesExact 2 t := by
  rw [← runSum_step]
  by_cases h3 : t.val % 4 = 3
  · rw [if_pos h3, show (dat_R2 V c).leavesExact 2 t = owns (c : Thread nD τ) (st2_2 t) fullShare ((dat_R2 V c).after 2 t) from by
      unfold Dat.leavesExact; rw [live_R2_2 t h3], dat_R2_after2]
  · rw [if_neg h3, Dat.leavesExact_idle (dat_R2 V c) 2 t (idle_R2_2 t h3) (noFlush_R2_2 t h3)]
    iintro H; iexists _; iexact H

set_option maxHeartbeats 2000000 in
theorem point_R2 (c : Dev nD) (t : Fin cfg2.N) :
    handed_R2 V c t ⊢ wp frame (wpE (defs₀ (F := F)) Variants.none c none) Set.univ (bodyAt2 t) (fun _ => returned_R2 V c t) := by
  unfold handed_R2 returned_R2 bodyAt2
  simp only [dat_R2_before0, dat_R2_before1, leaves_R2_0, leaves_R2_1]
  exact point_col (body := cc2_matmul_atb_kernel) rfl c (grid2.coords t) t.val (firstK_col_iff t) (lastK_col_iff t) _ _ _ _ _ _ _ _
    (xBlk_R2 V c t) (wBlk_R2 V c t) (sumAfter_R2 V c (t.val - 1) (Nat.lt_of_le_of_lt (Nat.sub_le _ _) t.isLt))
    (fun d => (dat_R2 V c).before 2 t d) _ _ _ _ (aside_R2 c)
    (between_found c acc_R2 (aside_R2 c) (sumAfter_R2 V c) t)
    (between_left c acc_R2 (aside_R2 c) (sumAfter_R2 V c) t _ (runSum_step _ _ _ _ t))
    (fun d => leaves_R2_2 V c t d)

theorem body_R2 (c : Dev nD) : BodyObligation (dat_R2 (F := F) V c) (defs₀ (F := F)) Variants.none () Set.univ := fun t => by
  rw [bigSep_W2, bigSep_W2]
  exact point_R2 V c t

end Obligation_R2

end Cert.Kernel.Hand
end
-- ==== Proof.Bits.PipeR3.lean ====
import proofs.«140595_j18622978196102_1_alg».proof.Proof.Bits.StepCol

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R3

variable (V : (c : Dev nD) → (b : Ref sig .tc) → Buf (Elt F) ((c : Thread nD τ).loc b))

-- The block of operand w at point t, cut out of its array as the region finds it.
def blk_R3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xBlk_R3 (c : Dev nD) (t : Fin cfg3.N) : Vec F S1024x1024 .f32 := blk_R3 V c 0 t
abbrev wBlk_R3 (c : Dev nD) (t : Fin cfg3.N) : Vec F S1024x1024 .bf16 := blk_R3 V c 1 t

abbrev sumAfter_R3 (c : Dev nD) : (n : ℕ) → n < cfg3.N → Vec F S1024x1024 .f32 :=
  runSum (startBlock_col (F := F)) (addBlock_col (F := F)) (xBlk_R3 V c) (wBlk_R3 V c)

abbrev acc_R3 : Memref sig .tc .vmem S1024x1024 .f32 := Memref.whole cc3_scratch0

abbrev aside_R3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

-- What every point leaves: the input blocks as found, the output block at the finished sum where it is written, the running sum between points.
def dat_R3 (c : Dev nD) : Dat τ (Elt F) Unit ℕ (UR sig nD τ) ℕ cfg3 c where
  A w := V c (Pipeline.arrRef spec3 w)
  after w t := match w with
    | ⟨0, _⟩ => blk_R3 V c 0 t
    | ⟨1, _⟩ => blk_R3 V c 1 t
    | ⟨2, _⟩ => sumAfter_R3 V c t.val t.isLt
  Φ t := between c acc_R3 (aside_R3 c) (sumAfter_R3 V c) t.val (Nat.le_of_lt_succ t.isLt)
  q _ := fullShare
  owed _ := 0

theorem dat_R3_A (c : Dev nD) (w : Fin cfg3.W) : (dat_R3 V c).A w = V c (Pipeline.arrRef spec3 w) := by dsimp only [dat_R3]
theorem dat_R3_after0 (c : Dev nD) (t : Fin cfg3.N) : (dat_R3 V c).after 0 t = blk_R3 V c 0 t := by dsimp only [dat_R3]
theorem dat_R3_after1 (c : Dev nD) (t : Fin cfg3.N) : (dat_R3 V c).after 1 t = blk_R3 V c 1 t := by dsimp only [dat_R3]
theorem dat_R3_after2 (c : Dev nD) (t : Fin cfg3.N) : (dat_R3 V c).after 2 t = sumAfter_R3 V c t.val t.isLt := by dsimp only [dat_R3]

theorem dat_R3_before0 (c : Dev nD) (t : Fin cfg3.N) (d) : (dat_R3 V c).before 0 t d = blk_R3 V c 0 t :=
  ((dat_R3 V c).before_in_eq_fetched 0 rfl (fun _ => rfl) (fun _ _ _ => rfl)
    (fun t => by rw [dat_R3_after0]; unfold Dat.blockOf blk_R3; rw [dat_R3_A]; try rfl) t d).trans
    (by unfold Dat.fetched Dat.blockOf blk_R3; rw [dat_R3_A]; try rfl)
theorem dat_R3_before1 (c : Dev nD) (t : Fin cfg3.N) (d) : (dat_R3 V c).before 1 t d = blk_R3 V c 1 t :=
  ((dat_R3 V c).before_in_eq_fetched 1 rfl (fun _ => rfl) (fun _ _ _ => rfl)
    (fun t => by rw [dat_R3_after1]; unfold Dat.blockOf blk_R3; rw [dat_R3_A]; try rfl) t d).trans
    (by unfold Dat.fetched Dat.blockOf blk_R3; rw [dat_R3_A]; try rfl)

theorem live_R3_0 : ∀ t : Fin cfg3.N, cfg3.idle 0 (grid3.coords t) = false := by decide +kernel
theorem live_R3_1 : ∀ t : Fin cfg3.N, cfg3.idle 1 (grid3.coords t) = false := by decide +kernel
theorem idle_R3_2 : ∀ t : Fin cfg3.N, ¬t.val % 4 = 3 → cfg3.idle 2 (grid3.coords t) = true := by decide +kernel
theorem noFlush_R3_2 : ∀ t : Fin cfg3.N, ¬t.val % 4 = 3 → (cfg3.win 2).flush t = false := by decide +kernel
theorem live_R3_2 : ∀ t : Fin cfg3.N, t.val % 4 = 3 → cfg3.idle 2 (grid3.coords t) = false := by decide +kernel

end Data_R3

section Obligation_R3

variable (V : (c : Dev nD) → (b : Ref sig .tc) → Buf (Elt F) ((c : Thread nD τ).loc b))

def handed_R3 (c : Dev nD) (t : Fin cfg3.N) : sProp 𝕄 :=
  iprop((dat_R3 V c).Φ t.castSucc ∗ (dat_R3 V c).owesAt () t.castSucc
    ∗ (∃ d, owns (c : Thread nD τ) (st3_0 t) fullShare ((dat_R3 V c).before 0 t d))
    ∗ (∃ d, owns (c : Thread nD τ) (st3_1 t) fullShare ((dat_R3 V c).before 1 t d))
    ∗ (∃ d, owns (c : Thread nD τ) (st3_2 t) fullShare ((dat_R3 V c).before 2 t d)))

def returned_R3 (c : Dev nD) (t : Fin cfg3.N) : sProp 𝕄 :=
  iprop((dat_R3 V c).Φ t.succ ∗ (dat_R3 V c).owesAt () t.succ
    ∗ (dat_R3 V c).leavesExact 0 t ∗ (dat_R3 V c).leavesExact 1 t ∗ (dat_R3 V c).leavesExact 2 t)

theorem leaves_R3_0 (c : Dev nD) (t : Fin cfg3.N) :
    (dat_R3 V c).leavesExact 0 t = owns (c : Thread nD τ) (st3_0 t) fullShare (blk_R3 V c 0 t) := by
  unfold Dat.leavesExact; rw [live_R3_0 t, dat_R3_after0]
theorem leaves_R3_1 (c : Dev nD) (t : Fin cfg3.N) :
    (dat_R3 V c).leavesExact 1 t = owns (c : Thread nD τ) (st3_1 t) fullShare (blk_R3 V c 1 t) := by
  unfold Dat.leavesExact; rw [live_R3_1 t, dat_R3_after1]

-- The output block after the point: the finished sum where the point ends a run, else as found.
theorem leaves_R3_2 (c : Dev nD) (t : Fin cfg3.N) (d) :
    owns (c : Thread nD τ) (st3_2 t) fullShare (if t.val % 4 = 3 then (stepSum (startBlock_col (F := F)) (addBlock_col (F := F)) t.val (xBlk_R3 V c t) (wBlk_R3 V c t) (sumAfter_R3 V c (t.val - 1) (Nat.lt_of_le_of_lt (Nat.sub_le _ _) t.isLt))) else (dat_R3 V c).before 2 t d)
      ⊢ (dat_R3 V c).leavesExact 2 t := by
  rw [← runSum_step]
  by_cases h3 : t.val % 4 = 3
  · rw [if_pos h3, show (dat_R3 V c).leavesExact 2 t = owns (c : Thread nD τ) (st3_2 t) fullShare ((dat_R3 V c).after 2 t) from by
      unfold Dat.leavesExact; rw [live_R3_2 t h3], dat_R3_after2]
  · rw [if_neg h3, Dat.leavesExact_idle (dat_R3 V c) 2 t (idle_R3_2 t h3) (noFlush_R3_2 t h3)]
    iintro H; iexists _; iexact H

set_option maxHeartbeats 2000000 in
theorem point_R3 (c : Dev nD) (t : Fin cfg3.N) :
    handed_R3 V c t ⊢ wp frame (wpE (defs₀ (F := F)) Variants.none c none) Set.univ (bodyAt3 t) (fun _ => returned_R3 V c t) := by
  unfold handed_R3 returned_R3 bodyAt3
  simp only [dat_R3_before0, dat_R3_before1, leaves_R3_0, leaves_R3_1]
  exact point_col (body := cc3_matmul_atb_kernel) rfl c (grid3.coords t) t.val (firstK_col_iff t) (lastK_col_iff t) _ _ _ _ _ _ _ _
    (xBlk_R3 V c t) (wBlk_R3 V c t) (sumAfter_R3 V c (t.val - 1) (Nat.lt_of_le_of_lt (Nat.sub_le _ _) t.isLt))
    (fun d => (dat_R3 V c).before 2 t d) _ _ _ _ (aside_R3 c)
    (between_found c acc_R3 (aside_R3 c) (sumAfter_R3 V c) t)
    (between_left c acc_R3 (aside_R3 c) (sumAfter_R3 V c) t _ (runSum_step _ _ _ _ t))
    (fun d => leaves_R3_2 V c t d)

theorem body_R3 (c : Dev nD) : BodyObligation (dat_R3 (F := F) V c) (defs₀ (F := F)) Variants.none () Set.univ := fun t => by
  rw [bigSep_W3, bigSep_W3]
  exact point_R3 V c t

end Obligation_R3

end Cert.Kernel.Hand
end
-- ==== Proof.Bits.PipeR4.lean ====
import proofs.«140595_j18622978196102_1_alg».proof.Proof.Bits.StepCol

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R4

variable (V : (c : Dev nD) → (b : Ref sig .tc) → Buf (Elt F) ((c : Thread nD τ).loc b))

-- The block of operand w at point t, cut out of its array as the region finds it.
def blk_R4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xBlk_R4 (c : Dev nD) (t : Fin cfg4.N) : Vec F S1024x1024 .f32 := blk_R4 V c 0 t
abbrev wBlk_R4 (c : Dev nD) (t : Fin cfg4.N) : Vec F S1024x1024 .bf16 := blk_R4 V c 1 t

abbrev sumAfter_R4 (c : Dev nD) : (n : ℕ) → n < cfg4.N → Vec F S1024x1024 .f32 :=
  runSum (startBlock_col (F := F)) (addBlock_col (F := F)) (xBlk_R4 V c) (wBlk_R4 V c)

abbrev acc_R4 : Memref sig .tc .vmem S1024x1024 .f32 := Memref.whole cc4_scratch0

abbrev aside_R4 (c : Dev nD) : sProp 𝕄 :=
  iprop(Pipeline.scopedRestBut (Ix := Unit) (Name := ℕ) (U := UR sig nD τ) (Lvl := ℕ) (Val := Elt F) spec4 c [cc4_scratch0] ∗ ∃ r, prngReg c r)

-- What every point leaves: the input blocks as found, the output block at the finished sum where it is written, the running sum between points.
def dat_R4 (c : Dev nD) : Dat τ (Elt F) Unit ℕ (UR sig nD τ) ℕ cfg4 c where
  A w := V c (Pipeline.arrRef spec4 w)
  after w t := match w with
    | ⟨0, _⟩ => blk_R4 V c 0 t
    | ⟨1, _⟩ => blk_R4 V c 1 t
    | ⟨2, _⟩ => sumAfter_R4 V c t.val t.isLt
  Φ t := between c acc_R4 (aside_R4 c) (sumAfter_R4 V c) t.val (Nat.le_of_lt_succ t.isLt)
  q _ := fullShare
  owed _ := 0

theorem dat_R4_A (c : Dev nD) (w : Fin cfg4.W) : (dat_R4 V c).A w = V c (Pipeline.arrRef spec4 w) := by dsimp only [dat_R4]
theorem dat_R4_after0 (c : Dev nD) (t : Fin cfg4.N) : (dat_R4 V c).after 0 t = blk_R4 V c 0 t := by dsimp only [dat_R4]
theorem dat_R4_after1 (c : Dev nD) (t : Fin cfg4.N) : (dat_R4 V c).after 1 t = blk_R4 V c 1 t := by dsimp only [dat_R4]
theorem dat_R4_after2 (c : Dev nD) (t : Fin cfg4.N) : (dat_R4 V c).after 2 t = sumAfter_R4 V c t.val t.isLt := by dsimp only [dat_R4]

theorem dat_R4_before0 (c : Dev nD) (t : Fin cfg4.N) (d) : (dat_R4 V c).before 0 t d = blk_R4 V c 0 t :=
  ((dat_R4 V c).before_in_eq_fetched 0 rfl (fun _ => rfl) (fun _ _ _ => rfl)
    (fun t => by rw [dat_R4_after0]; unfold Dat.blockOf blk_R4; rw [dat_R4_A]; try rfl) t d).trans
    (by unfold Dat.fetched Dat.blockOf blk_R4; rw [dat_R4_A]; try rfl)
theorem dat_R4_before1 (c : Dev nD) (t : Fin cfg4.N) (d) : (dat_R4 V c).before 1 t d = blk_R4 V c 1 t :=
  ((dat_R4 V c).before_in_eq_fetched 1 rfl (fun _ => rfl) (fun _ _ _ => rfl)
    (fun t => by rw [dat_R4_after1]; unfold Dat.blockOf blk_R4; rw [dat_R4_A]; try rfl) t d).trans
    (by unfold Dat.fetched Dat.blockOf blk_R4; rw [dat_R4_A]; try rfl)

theorem live_R4_0 : ∀ t : Fin cfg4.N, cfg4.idle 0 (grid4.coords t) = false := by decide +kernel
theorem live_R4_1 : ∀ t : Fin cfg4.N, cfg4.idle 1 (grid4.coords t) = false := by decide +kernel
theorem idle_R4_2 : ∀ t : Fin cfg4.N, ¬t.val % 4 = 3 → cfg4.idle 2 (grid4.coords t) = true := by decide +kernel
theorem noFlush_R4_2 : ∀ t : Fin cfg4.N, ¬t.val % 4 = 3 → (cfg4.win 2).flush t = false := by decide +kernel
theorem live_R4_2 : ∀ t : Fin cfg4.N, t.val % 4 = 3 → cfg4.idle 2 (grid4.coords t) = false := by decide +kernel

end Data_R4

section Obligation_R4

variable (V : (c : Dev nD) → (b : Ref sig .tc) → Buf (Elt F) ((c : Thread nD τ).loc b))

def handed_R4 (c : Dev nD) (t : Fin cfg4.N) : sProp 𝕄 :=
  iprop((dat_R4 V c).Φ t.castSucc ∗ (dat_R4 V c).owesAt () t.castSucc
    ∗ (∃ d, owns (c : Thread nD τ) (st4_0 t) fullShare ((dat_R4 V c).before 0 t d))
    ∗ (∃ d, owns (c : Thread nD τ) (st4_1 t) fullShare ((dat_R4 V c).before 1 t d))
    ∗ (∃ d, owns (c : Thread nD τ) (st4_2 t) fullShare ((dat_R4 V c).before 2 t d)))

def returned_R4 (c : Dev nD) (t : Fin cfg4.N) : sProp 𝕄 :=
  iprop((dat_R4 V c).Φ t.succ ∗ (dat_R4 V c).owesAt () t.succ
    ∗ (dat_R4 V c).leavesExact 0 t ∗ (dat_R4 V c).leavesExact 1 t ∗ (dat_R4 V c).leavesExact 2 t)

theorem leaves_R4_0 (c : Dev nD) (t : Fin cfg4.N) :
    (dat_R4 V c).leavesExact 0 t = owns (c : Thread nD τ) (st4_0 t) fullShare (blk_R4 V c 0 t) := by
  unfold Dat.leavesExact; rw [live_R4_0 t, dat_R4_after0]
theorem leaves_R4_1 (c : Dev nD) (t : Fin cfg4.N) :
    (dat_R4 V c).leavesExact 1 t = owns (c : Thread nD τ) (st4_1 t) fullShare (blk_R4 V c 1 t) := by
  unfold Dat.leavesExact; rw [live_R4_1 t, dat_R4_after1]

-- The output block after the point: the finished sum where the point ends a run, else as found.
theorem leaves_R4_2 (c : Dev nD) (t : Fin cfg4.N) (d) :
    owns (c : Thread nD τ) (st4_2 t) fullShare (if t.val % 4 = 3 then (stepSum (startBlock_col (F := F)) (addBlock_col (F := F)) t.val (xBlk_R4 V c t) (wBlk_R4 V c t) (sumAfter_R4 V c (t.val - 1) (Nat.lt_of_le_of_lt (Nat.sub_le _ _) t.isLt))) else (dat_R4 V c).before 2 t d)
      ⊢ (dat_R4 V c).leavesExact 2 t := by
  rw [← runSum_step]
  by_cases h3 : t.val % 4 = 3
  · rw [if_pos h3, show (dat_R4 V c).leavesExact 2 t = owns (c : Thread nD τ) (st4_2 t) fullShare ((dat_R4 V c).after 2 t) from by
      unfold Dat.leavesExact; rw [live_R4_2 t h3], dat_R4_after2]
  · rw [if_neg h3, Dat.leavesExact_idle (dat_R4 V c) 2 t (idle_R4_2 t h3) (noFlush_R4_2 t h3)]
    iintro H; iexists _; iexact H

set_option maxHeartbeats 2000000 in
theorem point_R4 (c : Dev nD) (t : Fin cfg4.N) :
    handed_R4 V c t ⊢ wp frame (wpE (defs₀ (F := F)) Variants.none c none) Set.univ (bodyAt4 t) (fun _ => returned_R4 V c t) := by
  unfold handed_R4 returned_R4 bodyAt4
  simp only [dat_R4_before0, dat_R4_before1, leaves_R4_0, leaves_R4_1]
  exact point_col (body := cc4_matmul_atb_kernel) rfl c (grid4.coords t) t.val (firstK_col_iff t) (lastK_col_iff t) _ _ _ _ _ _ _ _
    (xBlk_R4 V c t) (wBlk_R4 V c t) (sumAfter_R4 V c (t.val - 1) (Nat.lt_of_le_of_lt (Nat.sub_le _ _) t.isLt))
    (fun d => (dat_R4 V c).before 2 t d) _ _ _ _ (aside_R4 c)
    (between_found c acc_R4 (aside_R4 c) (sumAfter_R4 V c) t)
    (between_left c acc_R4 (aside_R4 c) (sumAfter_R4 V c) t _ (runSum_step _ _ _ _ t))
    (fun d => leaves_R4_2 V c t d)

theorem body_R4 (c : Dev nD) : BodyObligation (dat_R4 (F := F) V c) (defs₀ (F := F)) Variants.none () Set.univ := fun t => by
  rw [bigSep_W4, bigSep_W4]
  exact point_R4 V c t

end Obligation_R4

end Cert.Kernel.Hand
end
-- ==== Proof.Bits.PipeR5.lean ====
import proofs.«140595_j18622978196102_1_alg».proof.Proof.Bits.StepCol

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R5

variable (V : (c : Dev nD) → (b : Ref sig .tc) → Buf (Elt F) ((c : Thread nD τ).loc b))

-- The block of operand w at point t, cut out of its array as the region finds it.
def blk_R5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xBlk_R5 (c : Dev nD) (t : Fin cfg5.N) : Vec F S1024x1024 .f32 := blk_R5 V c 0 t
abbrev wBlk_R5 (c : Dev nD) (t : Fin cfg5.N) : Vec F S1024x1024 .bf16 := blk_R5 V c 1 t

abbrev sumAfter_R5 (c : Dev nD) : (n : ℕ) → n < cfg5.N → Vec F S1024x1024 .f32 :=
  runSum (startBlock_col (F := F)) (addBlock_col (F := F)) (xBlk_R5 V c) (wBlk_R5 V c)

abbrev acc_R5 : Memref sig .tc .vmem S1024x1024 .f32 := Memref.whole cc5_scratch0

abbrev aside_R5 (c : Dev nD) : sProp 𝕄 :=
  iprop(Pipeline.scopedRestBut (Ix := Unit) (Name := ℕ) (U := UR sig nD τ) (Lvl := ℕ) (Val := Elt F) spec5 c [cc5_scratch0] ∗ ∃ r, prngReg c r)

-- What every point leaves: the input blocks as found, the output block at the finished sum where it is written, the running sum between points.
def dat_R5 (c : Dev nD) : Dat τ (Elt F) Unit ℕ (UR sig nD τ) ℕ cfg5 c where
  A w := V c (Pipeline.arrRef spec5 w)
  after w t := match w with
    | ⟨0, _⟩ => blk_R5 V c 0 t
    | ⟨1, _⟩ => blk_R5 V c 1 t
    | ⟨2, _⟩ => sumAfter_R5 V c t.val t.isLt
  Φ t := between c acc_R5 (aside_R5 c) (sumAfter_R5 V c) t.val (Nat.le_of_lt_succ t.isLt)
  q _ := fullShare
  owed _ := 0

theorem dat_R5_A (c : Dev nD) (w : Fin cfg5.W) : (dat_R5 V c).A w = V c (Pipeline.arrRef spec5 w) := by dsimp only [dat_R5]
theorem dat_R5_after0 (c : Dev nD) (t : Fin cfg5.N) : (dat_R5 V c).after 0 t = blk_R5 V c 0 t := by dsimp only [dat_R5]
theorem dat_R5_after1 (c : Dev nD) (t : Fin cfg5.N) : (dat_R5 V c).after 1 t = blk_R5 V c 1 t := by dsimp only [dat_R5]
theorem dat_R5_after2 (c : Dev nD) (t : Fin cfg5.N) : (dat_R5 V c).after 2 t = sumAfter_R5 V c t.val t.isLt := by dsimp only [dat_R5]

theorem dat_R5_before0 (c : Dev nD) (t : Fin cfg5.N) (d) : (dat_R5 V c).before 0 t d = blk_R5 V c 0 t :=
  ((dat_R5 V c).before_in_eq_fetched 0 rfl (fun _ => rfl) (fun _ _ _ => rfl)
    (fun t => by rw [dat_R5_after0]; unfold Dat.blockOf blk_R5; rw [dat_R5_A]; try rfl) t d).trans
    (by unfold Dat.fetched Dat.blockOf blk_R5; rw [dat_R5_A]; try rfl)
theorem dat_R5_before1 (c : Dev nD) (t : Fin cfg5.N) (d) : (dat_R5 V c).before 1 t d = blk_R5 V c 1 t :=
  ((dat_R5 V c).before_in_eq_fetched 1 rfl (fun _ => rfl) (fun _ _ _ => rfl)
    (fun t => by rw [dat_R5_after1]; unfold Dat.blockOf blk_R5; rw [dat_R5_A]; try rfl) t d).trans
    (by unfold Dat.fetched Dat.blockOf blk_R5; rw [dat_R5_A]; try rfl)

theorem live_R5_0 : ∀ t : Fin cfg5.N, cfg5.idle 0 (grid5.coords t) = false := by decide +kernel
theorem live_R5_1 : ∀ t : Fin cfg5.N, cfg5.idle 1 (grid5.coords t) = false := by decide +kernel
theorem idle_R5_2 : ∀ t : Fin cfg5.N, ¬t.val % 4 = 3 → cfg5.idle 2 (grid5.coords t) = true := by decide +kernel
theorem noFlush_R5_2 : ∀ t : Fin cfg5.N, ¬t.val % 4 = 3 → (cfg5.win 2).flush t = false := by decide +kernel
theorem live_R5_2 : ∀ t : Fin cfg5.N, t.val % 4 = 3 → cfg5.idle 2 (grid5.coords t) = false := by decide +kernel

end Data_R5

section Obligation_R5

variable (V : (c : Dev nD) → (b : Ref sig .tc) → Buf (Elt F) ((c : Thread nD τ).loc b))

def handed_R5 (c : Dev nD) (t : Fin cfg5.N) : sProp 𝕄 :=
  iprop((dat_R5 V c).Φ t.castSucc ∗ (dat_R5 V c).owesAt () t.castSucc
    ∗ (∃ d, owns (c : Thread nD τ) (st5_0 t) fullShare ((dat_R5 V c).before 0 t d))
    ∗ (∃ d, owns (c : Thread nD τ) (st5_1 t) fullShare ((dat_R5 V c).before 1 t d))
    ∗ (∃ d, owns (c : Thread nD τ) (st5_2 t) fullShare ((dat_R5 V c).before 2 t d)))

def returned_R5 (c : Dev nD) (t : Fin cfg5.N) : sProp 𝕄 :=
  iprop((dat_R5 V c).Φ t.succ ∗ (dat_R5 V c).owesAt () t.succ
    ∗ (dat_R5 V c).leavesExact 0 t ∗ (dat_R5 V c).leavesExact 1 t ∗ (dat_R5 V c).leavesExact 2 t)

theorem leaves_R5_0 (c : Dev nD) (t : Fin cfg5.N) :
    (dat_R5 V c).leavesExact 0 t = owns (c : Thread nD τ) (st5_0 t) fullShare (blk_R5 V c 0 t) := by
  unfold Dat.leavesExact; rw [live_R5_0 t, dat_R5_after0]
theorem leaves_R5_1 (c : Dev nD) (t : Fin cfg5.N) :
    (dat_R5 V c).leavesExact 1 t = owns (c : Thread nD τ) (st5_1 t) fullShare (blk_R5 V c 1 t) := by
  unfold Dat.leavesExact; rw [live_R5_1 t, dat_R5_after1]

-- The output block after the point: the finished sum where the point ends a run, else as found.
theorem leaves_R5_2 (c : Dev nD) (t : Fin cfg5.N) (d) :
    owns (c : Thread nD τ) (st5_2 t) fullShare (if t.val % 4 = 3 then (stepSum (startBlock_col (F := F)) (addBlock_col (F := F)) t.val (xBlk_R5 V c t) (wBlk_R5 V c t) (sumAfter_R5 V c (t.val - 1) (Nat.lt_of_le_of_lt (Nat.sub_le _ _) t.isLt))) else (dat_R5 V c).before 2 t d)
      ⊢ (dat_R5 V c).leavesExact 2 t := by
  rw [← runSum_step]
  by_cases h3 : t.val % 4 = 3
  · rw [if_pos h3, show (dat_R5 V c).leavesExact 2 t = owns (c : Thread nD τ) (st5_2 t) fullShare ((dat_R5 V c).after 2 t) from by
      unfold Dat.leavesExact; rw [live_R5_2 t h3], dat_R5_after2]
  · rw [if_neg h3, Dat.leavesExact_idle (dat_R5 V c) 2 t (idle_R5_2 t h3) (noFlush_R5_2 t h3)]
    iintro H; iexists _; iexact H

set_option maxHeartbeats 2000000 in
theorem point_R5 (c : Dev nD) (t : Fin cfg5.N) :
    handed_R5 V c t ⊢ wp frame (wpE (defs₀ (F := F)) Variants.none c none) Set.univ (bodyAt5 t) (fun _ => returned_R5 V c t) := by
  unfold handed_R5 returned_R5 bodyAt5
  simp only [dat_R5_before0, dat_R5_before1, leaves_R5_0, leaves_R5_1]
  exact point_col (body := cc5_matmul_atb_kernel) rfl c (grid5.coords t) t.val (firstK_col_iff t) (lastK_col_iff t) _ _ _ _ _ _ _ _
    (xBlk_R5 V c t) (wBlk_R5 V c t) (sumAfter_R5 V c (t.val - 1) (Nat.lt_of_le_of_lt (Nat.sub_le _ _) t.isLt))
    (fun d => (dat_R5 V c).before 2 t d) _ _ _ _ (aside_R5 c)
    (between_found c acc_R5 (aside_R5 c) (sumAfter_R5 V c) t)
    (between_left c acc_R5 (aside_R5 c) (sumAfter_R5 V c) t _ (runSum_step _ _ _ _ t))
    (fun d => leaves_R5_2 V c t d)

theorem body_R5 (c : Dev nD) : BodyObligation (dat_R5 (F := F) V c) (defs₀ (F := F)) Variants.none () Set.univ := fun t => by
  rw [bigSep_W5, bigSep_W5]
  exact point_R5 V c t

end Obligation_R5

end Cert.Kernel.Hand
end
-- ==== Proof.Bits.Bounds.lean ====
import proofs.«140595_j18622978196102_1_alg».proof.Proof.Bits.PipeR0
import proofs.«140595_j18622978196102_1_alg».proof.Proof.Bits.PipeR1
import proofs.«140595_j18622978196102_1_alg».proof.Proof.Bits.PipeR2
import proofs.«140595_j18622978196102_1_alg».proof.Proof.Bits.PipeR3
import proofs.«140595_j18622978196102_1_alg».proof.Proof.Bits.PipeR4
import proofs.«140595_j18622978196102_1_alg».proof.Proof.Bits.PipeR5
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev at0 (c : Dev nD) : Valuation τ sig (Elt F) := fun b => m (c, b)
abbrev atIn_R0 : (c : Dev nD) → (b : Ref sig .tc) → Buf (Elt F) ((c : Thread nD τ).loc b) := fun c b => at0 m c b
def at1 (c : Dev nD) : Valuation τ sig (Elt F) :=
  Pipeline.withArrays spec0 c (at0 m c) fun w => (dat_R0 (atIn_R0 m) c).arrAt w cfg0.N
abbrev atIn_R1 : (c : Dev nD) → (b : Ref sig .tc) → Buf (Elt F) ((c : Thread nD τ).loc b) := fun c b => at1 m c b
def at2 (c : Dev nD) : Valuation τ sig (Elt F) :=
  Pipeline.withArrays spec1 c (at1 m c) fun w => (dat_R1 (atIn_R1 m) c).arrAt w cfg1.N
abbrev atIn_R2 : (c : Dev nD) → (b : Ref sig .tc) → Buf (Elt F) ((c : Thread nD τ).loc b) := fun c b => at2 m c b
def at3 (c : Dev nD) : Valuation τ sig (Elt F) :=
  Pipeline.withArrays spec2 c (at2 m c) fun w => (dat_R2 (atIn_R2 m) c).arrAt w cfg2.N
abbrev atIn_R3 : (c : Dev nD) → (b : Ref sig .tc) → Buf (Elt F) ((c : Thread nD τ).loc b) := fun c b => at3 m c b
def at4 (c : Dev nD) : Valuation τ sig (Elt F) :=
  Pipeline.withArrays spec3 c (at3 m c) fun w => (dat_R3 (atIn_R3 m) c).arrAt w cfg3.N
abbrev atIn_R4 : (c : Dev nD) → (b : Ref sig .tc) → Buf (Elt F) ((c : Thread nD τ).loc b) := fun c b => at4 m c b
def at5 (c : Dev nD) : Valuation τ sig (Elt F) :=
  Pipeline.withArrays spec4 c (at4 m c) fun w => (dat_R4 (atIn_R4 m) c).arrAt w cfg4.N
abbrev atIn_R5 : (c : Dev nD) → (b : Ref sig .tc) → Buf (Elt F) ((c : Thread nD τ).loc b) := fun c b => at5 m c b
def at6 (c : Dev nD) : Valuation τ sig (Elt F) :=
  Pipeline.withArrays spec5 c (at5 m c) fun w => (dat_R5 (atIn_R5 m) c).arrAt w cfg5.N
abbrev at7 (c : Dev nD) : Valuation τ sig (Elt F) := StableHlo.after hostOps6 (at6 m c)

abbrev atEntry_R0 := at0 m
abbrev atExit_R0 := at1 m
abbrev atEntry_R1 := at1 m
abbrev atExit_R1 := at2 m
abbrev atEntry_R2 := at2 m
abbrev atExit_R2 := at3 m
abbrev atEntry_R3 := at3 m
abbrev atExit_R3 := at4 m
abbrev atEntry_R4 := at4 m
abbrev atExit_R4 := at5 m
abbrev atEntry_R5 := at5 m
abbrev atExit_R5 := at6 m

theorem atExit_R0_arr (c : Dev nD) (w : Fin cfg0.W) :
    atExit_R0 m c (Proc.devRef .tc (Pipeline.arrRef spec0 w)) = (dat_R0 (atIn_R0 m) c).arrAt w cfg0.N := by
  show at1 m c (Proc.devRef .tc (Pipeline.arrRef spec0 w)) = _
  unfold at1; exact Pipeline.withArrays_arr spec0 launch0.win.arr_inj c _ _ w
theorem atExit_R0_of_ne (c : Dev nD) (b : Ref sig .tc) (hb : ∀ w, Pipeline.arrRef spec0 w ≠ b) :
    atExit_R0 m c (Proc.devRef .tc b) = atEntry_R0 m c (Proc.devRef .tc b) := by
  show at1 m c (Proc.devRef .tc b) = at0 m c (Proc.devRef .tc b)
  unfold at1; exact Pipeline.withArrays_of_ne spec0 c _ _ b hb

theorem atExit_R1_arr (c : Dev nD) (w : Fin cfg1.W) :
    atExit_R1 m c (Proc.devRef .tc (Pipeline.arrRef spec1 w)) = (dat_R1 (atIn_R1 m) c).arrAt w cfg1.N := by
  show at2 m c (Proc.devRef .tc (Pipeline.arrRef spec1 w)) = _
  unfold at2; exact Pipeline.withArrays_arr spec1 launch1.win.arr_inj c _ _ w
theorem atExit_R1_of_ne (c : Dev nD) (b : Ref sig .tc) (hb : ∀ w, Pipeline.arrRef spec1 w ≠ b) :
    atExit_R1 m c (Proc.devRef .tc b) = atEntry_R1 m c (Proc.devRef .tc b) := by
  show at2 m c (Proc.devRef .tc b) = at1 m c (Proc.devRef .tc b)
  unfold at2; exact Pipeline.withArrays_of_ne spec1 c _ _ b hb

theorem atExit_R2_arr (c : Dev nD) (w : Fin cfg2.W) :
    atExit_R2 m c (Proc.devRef .tc (Pipeline.arrRef spec2 w)) = (dat_R2 (atIn_R2 m) c).arrAt w cfg2.N := by
  show at3 m c (Proc.devRef .tc (Pipeline.arrRef spec2 w)) = _
  unfold at3; exact Pipeline.withArrays_arr spec2 launch2.win.arr_inj c _ _ w
theorem atExit_R2_of_ne (c : Dev nD) (b : Ref sig .tc) (hb : ∀ w, Pipeline.arrRef spec2 w ≠ b) :
    atExit_R2 m c (Proc.devRef .tc b) = atEntry_R2 m c (Proc.devRef .tc b) := by
  show at3 m c (Proc.devRef .tc b) = at2 m c (Proc.devRef .tc b)
  unfold at3; exact Pipeline.withArrays_of_ne spec2 c _ _ b hb

theorem atExit_R3_arr (c : Dev nD) (w : Fin cfg3.W) :
    atExit_R3 m c (Proc.devRef .tc (Pipeline.arrRef spec3 w)) = (dat_R3 (atIn_R3 m) c).arrAt w cfg3.N := by
  show at4 m c (Proc.devRef .tc (Pipeline.arrRef spec3 w)) = _
  unfold at4; exact Pipeline.withArrays_arr spec3 launch3.win.arr_inj c _ _ w
theorem atExit_R3_of_ne (c : Dev nD) (b : Ref sig .tc) (hb : ∀ w, Pipeline.arrRef spec3 w ≠ b) :
    atExit_R3 m c (Proc.devRef .tc b) = atEntry_R3 m c (Proc.devRef .tc b) := by
  show at4 m c (Proc.devRef .tc b) = at3 m c (Proc.devRef .tc b)
  unfold at4; exact Pipeline.withArrays_of_ne spec3 c _ _ b hb

theorem atExit_R4_arr (c : Dev nD) (w : Fin cfg4.W) :
    atExit_R4 m c (Proc.devRef .tc (Pipeline.arrRef spec4 w)) = (dat_R4 (atIn_R4 m) c).arrAt w cfg4.N := by
  show at5 m c (Proc.devRef .tc (Pipeline.arrRef spec4 w)) = _
  unfold at5; exact Pipeline.withArrays_arr spec4 launch4.win.arr_inj c _ _ w
theorem atExit_R4_of_ne (c : Dev nD) (b : Ref sig .tc) (hb : ∀ w, Pipeline.arrRef spec4 w ≠ b) :
    atExit_R4 m c (Proc.devRef .tc b) = atEntry_R4 m c (Proc.devRef .tc b) := by
  show at5 m c (Proc.devRef .tc b) = at4 m c (Proc.devRef .tc b)
  unfold at5; exact Pipeline.withArrays_of_ne spec4 c _ _ b hb

theorem atExit_R5_arr (c : Dev nD) (w : Fin cfg5.W) :
    atExit_R5 m c (Proc.devRef .tc (Pipeline.arrRef spec5 w)) = (dat_R5 (atIn_R5 m) c).arrAt w cfg5.N := by
  show at6 m c (Proc.devRef .tc (Pipeline.arrRef spec5 w)) = _
  unfold at6; exact Pipeline.withArrays_arr spec5 launch5.win.arr_inj c _ _ w
theorem atExit_R5_of_ne (c : Dev nD) (b : Ref sig .tc) (hb : ∀ w, Pipeline.arrRef spec5 w ≠ b) :
    atExit_R5 m c (Proc.devRef .tc b) = atEntry_R5 m c (Proc.devRef .tc b) := by
  show at6 m c (Proc.devRef .tc b) = at5 m c (Proc.devRef .tc b)
  unfold at6; exact Pipeline.withArrays_of_ne spec5 c _ _ b hb

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat_R0 (atIn_R0 m) c
  | ⟨1, _⟩ => fun c => dat_R1 (atIn_R1 m) c
  | ⟨2, _⟩ => fun c => dat_R2 (atIn_R2 m) c
  | ⟨3, _⟩ => fun c => dat_R3 (atIn_R3 m) c
  | ⟨4, _⟩ => fun c => dat_R4 (atIn_R4 m) c
  | ⟨5, _⟩ => fun c => dat_R5 (atIn_R5 m) c

abbrev 𝒱₀ : Variants := Variants.none
abbrev L : GSem nD τ sig → Finset Unit := fun _ => ∅
abbrev lv : GSem nD τ sig → Unit → ℕ := fun _ _ => 0
abbrev riding (c : Dev nD) : sProp 𝕄 := iprop((∃ r, prngReg c r) ∗ ∃ W, owes (c : Thread nD τ) (0 : CellTallies nD τ sig Unit) W)

abbrev state (B : Dev nD → Valuation τ sig (Elt F)) (c : Dev nD) : sProp 𝕄 :=
  iprop(StableHlo.held (c : Thread nD τ) (Pipeline.ucRefs τ sig) (B c) ∗ riding (F := F) c)

-- A region as an item of @main, built from what varies between regions: it changes its output array and nothing else.
set_option backward.isDefEq.respectTransparency.types false in
def segOf (p : Fin 6) (launch : Pipeline.LaunchFacts (nD := nD) (τ := τ) cfgs p) (Vin Vout : Dev nD → Valuation τ sig (Elt F))
    (hbody : ∀ c, BodyObligation (pdats m p c) (defs₀ (F := F)) Variants.none () Set.univ)
    (hshare : ∀ c w, (pdats m p c).share w = fullShare)
    (hA : ∀ c w, (pdats m p c).A w = Vin c (Pipeline.arrRef (Pipeline.pin (pcfgs (F := F)) adm p).spec w))
    (howed : ∀ c t, (pdats m p c).owed t = 0) (hrec : ∀ c t, (pdats m p c).recorded t = Set.univ)
    (henter : ∀ c, iprop((∃ r, prngReg c r) ∗ Pipeline.scopedRest (Ix := Unit) (Name := ℕ) (U := UR sig nD τ) (Lvl := ℕ) (Val := Elt F) (pcfgs (F := F) p).spec c)
      ⊢ (pdats m p c).Φ 0)
    (hleave : ∀ c, (pdats m p c).Φ (Fin.last _)
      ⊢ iprop((∃ r, prngReg c r) ∗ Pipeline.scopedRest (Ix := Unit) (Name := ℕ) (U := UR sig nD τ) (Lvl := ℕ) (Val := Elt F) (pcfgs (F := F) p).spec c))
    (hArr : ∀ c w, (pdats m p c).arrAt w (Pipeline.pin (pcfgs (F := F)) adm p).N = Vout c (Pipeline.arrRef (Pipeline.pin (pcfgs (F := F)) adm p).spec w))
    (hRest : ∀ c (b : Ref sig .tc), b ∉ Finset.univ.image (Pipeline.arrRef (Pipeline.pin (pcfgs (F := F)) adm p).spec) → Vout c b = Vin c b) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := state Vin c
  post c := state Vout c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Vin c b)
  hentry c := by
    rw [Pipeline.ownSems0_none]
    have hsplit := Pipeline.arrays_of_unscopedBufs (p := p) (pcfgs (F := F)) adm (pdats m) launch.win launch.arr_whole c
      (hshare c) (fun b => Vin c b) (hA c)
    rw [Pipeline.unscopedBufs_held] at hsplit
    iintro ⟨⟨Hheld, Hp, Hown⟩, -, -⟩
    ihave H := hsplit $$ Hheld
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hown]
    · unfold Pipeline.Dat.owesAt Pipeline.owesWithin
      rw [howed c 0]
      icases Hown with ⟨%W, Hown⟩; iexists W; isplitr; · ipureintro; exact fun _ _ => Or.inl ((hrec c 0).symm ▸ Set.mem_univ _)
      iexact Hown
    isplitl [Hp]; · iexact Hp
    iexact Hrest
  hin c := by
    iintro ⟨Hp, -, Hr⟩
    iapply (henter c)
    isplitl [Hp]; · iexact Hp
    iexact Hr
  hout c := by
    rw [Pipeline.ownSems0_none]
    iintro H
    ihave H' := (hleave c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hshare c)
      (fun b => Vin c b) (fun b => Vout c b) ((pdats m p c).arrAt · (Pipeline.pin (pcfgs (F := F)) adm p).N) (hArr c) (hRest c)
    rw [Pipeline.unscopedBufs_held] at hjoin
    iintro ⟨Harr, Hown, Hp, Hrest⟩
    imodintro
    isplitl [Harr Hrest]
    · iapply hjoin; isplitl [Harr] <;> iassumption
    isplitl [Hp]; · iexact Hp
    unfold Pipeline.Dat.owesAt Pipeline.owesWithin
    rw [howed c (Fin.last (Pipeline.pin (pcfgs (F := F)) adm p).N)]
    icases Hown with ⟨%W, -, Hown⟩; iexists W; iexact Hown

end Cert.Kernel.Hand
end
-- ==== Proof.Bits.SegR0.lean ====
import proofs.«140595_j18622978196102_1_alg».proof.Proof.Bits.Bounds

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R0 : (c : Dev nD) → (b : Ref sig .tc) → Buf (Elt F) ((c : Thread nD τ).loc b) := fun c b => atExit_R0 m c b

theorem exitArr_R0 (c : Dev nD) (w : Fin cfg0.W) :
    (dat_R0 (atIn_R0 m) c).arrAt w cfg0.N = atOut_R0 m c (Pipeline.arrRef spec0 w) := (atExit_R0_arr m c w).symm
theorem exitRest_R0 (c : Dev nD) : ∀ b, b ∉ Finset.univ.image (Pipeline.arrRef spec0) → atOut_R0 m c b = atIn_R0 m c b :=
  fun b hb => atExit_R0_of_ne m c b fun w e => hb (Finset.mem_image.mpr ⟨w, Finset.mem_univ _, e⟩)

-- Every array but the region's output is, after the region, as before it: an input array is only read, any other is not touched.
theorem kept_R0 (c : Dev nD) (b : Ref sig .tc) (hb : Pipeline.arrRef spec0 2 ≠ b) : atOut_R0 m c b = atIn_R0 m c b := by
  by_cases h0 : Pipeline.arrRef spec0 0 = b
  · subst h0
    exact (atExit_R0_arr m c 0).trans (((dat_R0 (atIn_R0 m) c).arrAt_in 0 rfl _).trans (dat_R0_A (atIn_R0 m) c 0))
  by_cases h1 : Pipeline.arrRef spec0 1 = b
  · subst h1
    exact (atExit_R0_arr m c 1).trans (((dat_R0 (atIn_R0 m) c).arrAt_in 1 rfl _).trans (dat_R0_A (atIn_R0 m) c 1))
  exact atExit_R0_of_ne m c b fun w => match w with | ⟨0, _⟩ => h0 | ⟨1, _⟩ => h1 | ⟨2, _⟩ => hb

theorem made_R0 (c : Dev nD) : atOut_R0 m c (Pipeline.arrRef spec0 2) = (dat_R0 (atIn_R0 m) c).arrAt 2 cfg0.N :=
  atExit_R0_arr m c 2

theorem rest_R0 (c : Dev nD) :
    (Pipeline.scopedRest (Ix := Unit) (Name := ℕ) (U := UR sig nD τ) (Lvl := ℕ) (Val := Elt F) spec0 c : sProp 𝕄)
      = iprop((∃ d, owns (c : Thread nD τ) acc_R0 fullShare d)
          ∗ Pipeline.scopedRestBut (Ix := Unit) (Name := ℕ) (U := UR sig nD τ) (Lvl := ℕ) (Val := Elt F) spec0 c [cc0_scratch0]) := by
  rw [scopedRest0_split]
  simp only [acc_R0, owns_whole]
  rfl

set_option backward.isDefEq.respectTransparency.types false in
def seg_R0 : Pipeline.RegionSeg (pcfgs (F := F)) adm (pdats m) () defs₀ 𝒱₀ L lv (0 : Fin 6) :=
  segOf m (0 : Fin 6) launch0 (atEntry_R0 m) (atExit_R0 m) (fun c => body_R0 (atIn_R0 m) c)
    (fun c => (pdats m (0 : Fin 6) c).share_full fun _ => rfl) (fun _ _ => rfl) (fun _ _ => rfl) (fun _ _ => rfl)
    (fun c => between_enter c acc_R0 _ _ (rest_R0 c) (sumAfter_R0 (atIn_R0 m) c))
    (fun c => between_leave c acc_R0 _ _ (rest_R0 c) (sumAfter_R0 (atIn_R0 m) c) (Fin.last cfg0.N).val (Nat.le_of_lt_succ (Fin.last cfg0.N).isLt))
    (exitArr_R0 m) (exitRest_R0 m)

end Cert.Kernel.Hand
end
-- ==== Proof.Bits.SegR1.lean ====
import proofs.«140595_j18622978196102_1_alg».proof.Proof.Bits.Bounds

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R1 : (c : Dev nD) → (b : Ref sig .tc) → Buf (Elt F) ((c : Thread nD τ).loc b) := fun c b => atExit_R1 m c b

theorem exitArr_R1 (c : Dev nD) (w : Fin cfg1.W) :
    (dat_R1 (atIn_R1 m) c).arrAt w cfg1.N = atOut_R1 m c (Pipeline.arrRef spec1 w) := (atExit_R1_arr m c w).symm
theorem exitRest_R1 (c : Dev nD) : ∀ b, b ∉ Finset.univ.image (Pipeline.arrRef spec1) → atOut_R1 m c b = atIn_R1 m c b :=
  fun b hb => atExit_R1_of_ne m c b fun w e => hb (Finset.mem_image.mpr ⟨w, Finset.mem_univ _, e⟩)

-- Every array but the region's output is, after the region, as before it: an input array is only read, any other is not touched.
theorem kept_R1 (c : Dev nD) (b : Ref sig .tc) (hb : Pipeline.arrRef spec1 2 ≠ b) : atOut_R1 m c b = atIn_R1 m c b := by
  by_cases h0 : Pipeline.arrRef spec1 0 = b
  · subst h0
    exact (atExit_R1_arr m c 0).trans (((dat_R1 (atIn_R1 m) c).arrAt_in 0 rfl _).trans (dat_R1_A (atIn_R1 m) c 0))
  by_cases h1 : Pipeline.arrRef spec1 1 = b
  · subst h1
    exact (atExit_R1_arr m c 1).trans (((dat_R1 (atIn_R1 m) c).arrAt_in 1 rfl _).trans (dat_R1_A (atIn_R1 m) c 1))
  exact atExit_R1_of_ne m c b fun w => match w with | ⟨0, _⟩ => h0 | ⟨1, _⟩ => h1 | ⟨2, _⟩ => hb

theorem made_R1 (c : Dev nD) : atOut_R1 m c (Pipeline.arrRef spec1 2) = (dat_R1 (atIn_R1 m) c).arrAt 2 cfg1.N :=
  atExit_R1_arr m c 2

theorem rest_R1 (c : Dev nD) :
    (Pipeline.scopedRest (Ix := Unit) (Name := ℕ) (U := UR sig nD τ) (Lvl := ℕ) (Val := Elt F) spec1 c : sProp 𝕄)
      = iprop((∃ d, owns (c : Thread nD τ) acc_R1 fullShare d)
          ∗ Pipeline.scopedRestBut (Ix := Unit) (Name := ℕ) (U := UR sig nD τ) (Lvl := ℕ) (Val := Elt F) spec1 c [cc1_scratch0]) := by
  rw [scopedRest1_split]
  simp only [acc_R1, owns_whole]
  rfl

set_option backward.isDefEq.respectTransparency.types false in
def seg_R1 : Pipeline.RegionSeg (pcfgs (F := F)) adm (pdats m) () defs₀ 𝒱₀ L lv (1 : Fin 6) :=
  segOf m (1 : Fin 6) launch1 (atEntry_R1 m) (atExit_R1 m) (fun c => body_R1 (atIn_R1 m) c)
    (fun c => (pdats m (1 : Fin 6) c).share_full fun _ => rfl) (fun _ _ => rfl) (fun _ _ => rfl) (fun _ _ => rfl)
    (fun c => between_enter c acc_R1 _ _ (rest_R1 c) (sumAfter_R1 (atIn_R1 m) c))
    (fun c => between_leave c acc_R1 _ _ (rest_R1 c) (sumAfter_R1 (atIn_R1 m) c) (Fin.last cfg1.N).val (Nat.le_of_lt_succ (Fin.last cfg1.N).isLt))
    (exitArr_R1 m) (exitRest_R1 m)

end Cert.Kernel.Hand
end
-- ==== Proof.Bits.SegR2.lean ====
import proofs.«140595_j18622978196102_1_alg».proof.Proof.Bits.Bounds

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R2 : (c : Dev nD) → (b : Ref sig .tc) → Buf (Elt F) ((c : Thread nD τ).loc b) := fun c b => atExit_R2 m c b

theorem exitArr_R2 (c : Dev nD) (w : Fin cfg2.W) :
    (dat_R2 (atIn_R2 m) c).arrAt w cfg2.N = atOut_R2 m c (Pipeline.arrRef spec2 w) := (atExit_R2_arr m c w).symm
theorem exitRest_R2 (c : Dev nD) : ∀ b, b ∉ Finset.univ.image (Pipeline.arrRef spec2) → atOut_R2 m c b = atIn_R2 m c b :=
  fun b hb => atExit_R2_of_ne m c b fun w e => hb (Finset.mem_image.mpr ⟨w, Finset.mem_univ _, e⟩)

-- Every array but the region's output is, after the region, as before it: an input array is only read, any other is not touched.
theorem kept_R2 (c : Dev nD) (b : Ref sig .tc) (hb : Pipeline.arrRef spec2 2 ≠ b) : atOut_R2 m c b = atIn_R2 m c b := by
  by_cases h0 : Pipeline.arrRef spec2 0 = b
  · subst h0
    exact (atExit_R2_arr m c 0).trans (((dat_R2 (atIn_R2 m) c).arrAt_in 0 rfl _).trans (dat_R2_A (atIn_R2 m) c 0))
  by_cases h1 : Pipeline.arrRef spec2 1 = b
  · subst h1
    exact (atExit_R2_arr m c 1).trans (((dat_R2 (atIn_R2 m) c).arrAt_in 1 rfl _).trans (dat_R2_A (atIn_R2 m) c 1))
  exact atExit_R2_of_ne m c b fun w => match w with | ⟨0, _⟩ => h0 | ⟨1, _⟩ => h1 | ⟨2, _⟩ => hb

theorem made_R2 (c : Dev nD) : atOut_R2 m c (Pipeline.arrRef spec2 2) = (dat_R2 (atIn_R2 m) c).arrAt 2 cfg2.N :=
  atExit_R2_arr m c 2

theorem rest_R2 (c : Dev nD) :
    (Pipeline.scopedRest (Ix := Unit) (Name := ℕ) (U := UR sig nD τ) (Lvl := ℕ) (Val := Elt F) spec2 c : sProp 𝕄)
      = iprop((∃ d, owns (c : Thread nD τ) acc_R2 fullShare d)
          ∗ Pipeline.scopedRestBut (Ix := Unit) (Name := ℕ) (U := UR sig nD τ) (Lvl := ℕ) (Val := Elt F) spec2 c [cc2_scratch0]) := by
  rw [scopedRest2_split]
  simp only [acc_R2, owns_whole]
  rfl

set_option backward.isDefEq.respectTransparency.types false in
def seg_R2 : Pipeline.RegionSeg (pcfgs (F := F)) adm (pdats m) () defs₀ 𝒱₀ L lv (2 : Fin 6) :=
  segOf m (2 : Fin 6) launch2 (atEntry_R2 m) (atExit_R2 m) (fun c => body_R2 (atIn_R2 m) c)
    (fun c => (pdats m (2 : Fin 6) c).share_full fun _ => rfl) (fun _ _ => rfl) (fun _ _ => rfl) (fun _ _ => rfl)
    (fun c => between_enter c acc_R2 _ _ (rest_R2 c) (sumAfter_R2 (atIn_R2 m) c))
    (fun c => between_leave c acc_R2 _ _ (rest_R2 c) (sumAfter_R2 (atIn_R2 m) c) (Fin.last cfg2.N).val (Nat.le_of_lt_succ (Fin.last cfg2.N).isLt))
    (exitArr_R2 m) (exitRest_R2 m)

end Cert.Kernel.Hand
end
-- ==== Proof.Bits.SegR3.lean ====
import proofs.«140595_j18622978196102_1_alg».proof.Proof.Bits.Bounds

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R3 : (c : Dev nD) → (b : Ref sig .tc) → Buf (Elt F) ((c : Thread nD τ).loc b) := fun c b => atExit_R3 m c b

theorem exitArr_R3 (c : Dev nD) (w : Fin cfg3.W) :
    (dat_R3 (atIn_R3 m) c).arrAt w cfg3.N = atOut_R3 m c (Pipeline.arrRef spec3 w) := (atExit_R3_arr m c w).symm
theorem exitRest_R3 (c : Dev nD) : ∀ b, b ∉ Finset.univ.image (Pipeline.arrRef spec3) → atOut_R3 m c b = atIn_R3 m c b :=
  fun b hb => atExit_R3_of_ne m c b fun w e => hb (Finset.mem_image.mpr ⟨w, Finset.mem_univ _, e⟩)

-- Every array but the region's output is, after the region, as before it: an input array is only read, any other is not touched.
theorem kept_R3 (c : Dev nD) (b : Ref sig .tc) (hb : Pipeline.arrRef spec3 2 ≠ b) : atOut_R3 m c b = atIn_R3 m c b := by
  by_cases h0 : Pipeline.arrRef spec3 0 = b
  · subst h0
    exact (atExit_R3_arr m c 0).trans (((dat_R3 (atIn_R3 m) c).arrAt_in 0 rfl _).trans (dat_R3_A (atIn_R3 m) c 0))
  by_cases h1 : Pipeline.arrRef spec3 1 = b
  · subst h1
    exact (atExit_R3_arr m c 1).trans (((dat_R3 (atIn_R3 m) c).arrAt_in 1 rfl _).trans (dat_R3_A (atIn_R3 m) c 1))
  exact atExit_R3_of_ne m c b fun w => match w with | ⟨0, _⟩ => h0 | ⟨1, _⟩ => h1 | ⟨2, _⟩ => hb

theorem made_R3 (c : Dev nD) : atOut_R3 m c (Pipeline.arrRef spec3 2) = (dat_R3 (atIn_R3 m) c).arrAt 2 cfg3.N :=
  atExit_R3_arr m c 2

theorem rest_R3 (c : Dev nD) :
    (Pipeline.scopedRest (Ix := Unit) (Name := ℕ) (U := UR sig nD τ) (Lvl := ℕ) (Val := Elt F) spec3 c : sProp 𝕄)
      = iprop((∃ d, owns (c : Thread nD τ) acc_R3 fullShare d)
          ∗ Pipeline.scopedRestBut (Ix := Unit) (Name := ℕ) (U := UR sig nD τ) (Lvl := ℕ) (Val := Elt F) spec3 c [cc3_scratch0]) := by
  rw [scopedRest3_split]
  simp only [acc_R3, owns_whole]
  rfl

set_option backward.isDefEq.respectTransparency.types false in
def seg_R3 : Pipeline.RegionSeg (pcfgs (F := F)) adm (pdats m) () defs₀ 𝒱₀ L lv (3 : Fin 6) :=
  segOf m (3 : Fin 6) launch3 (atEntry_R3 m) (atExit_R3 m) (fun c => body_R3 (atIn_R3 m) c)
    (fun c => (pdats m (3 : Fin 6) c).share_full fun _ => rfl) (fun _ _ => rfl) (fun _ _ => rfl) (fun _ _ => rfl)
    (fun c => between_enter c acc_R3 _ _ (rest_R3 c) (sumAfter_R3 (atIn_R3 m) c))
    (fun c => between_leave c acc_R3 _ _ (rest_R3 c) (sumAfter_R3 (atIn_R3 m) c) (Fin.last cfg3.N).val (Nat.le_of_lt_succ (Fin.last cfg3.N).isLt))
    (exitArr_R3 m) (exitRest_R3 m)

end Cert.Kernel.Hand
end
-- ==== Proof.Bits.SegR4.lean ====
import proofs.«140595_j18622978196102_1_alg».proof.Proof.Bits.Bounds

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R4 : (c : Dev nD) → (b : Ref sig .tc) → Buf (Elt F) ((c : Thread nD τ).loc b) := fun c b => atExit_R4 m c b

theorem exitArr_R4 (c : Dev nD) (w : Fin cfg4.W) :
    (dat_R4 (atIn_R4 m) c).arrAt w cfg4.N = atOut_R4 m c (Pipeline.arrRef spec4 w) := (atExit_R4_arr m c w).symm
theorem exitRest_R4 (c : Dev nD) : ∀ b, b ∉ Finset.univ.image (Pipeline.arrRef spec4) → atOut_R4 m c b = atIn_R4 m c b :=
  fun b hb => atExit_R4_of_ne m c b fun w e => hb (Finset.mem_image.mpr ⟨w, Finset.mem_univ _, e⟩)

-- Every array but the region's output is, after the region, as before it: an input array is only read, any other is not touched.
theorem kept_R4 (c : Dev nD) (b : Ref sig .tc) (hb : Pipeline.arrRef spec4 2 ≠ b) : atOut_R4 m c b = atIn_R4 m c b := by
  by_cases h0 : Pipeline.arrRef spec4 0 = b
  · subst h0
    exact (atExit_R4_arr m c 0).trans (((dat_R4 (atIn_R4 m) c).arrAt_in 0 rfl _).trans (dat_R4_A (atIn_R4 m) c 0))
  by_cases h1 : Pipeline.arrRef spec4 1 = b
  · subst h1
    exact (atExit_R4_arr m c 1).trans (((dat_R4 (atIn_R4 m) c).arrAt_in 1 rfl _).trans (dat_R4_A (atIn_R4 m) c 1))
  exact atExit_R4_of_ne m c b fun w => match w with | ⟨0, _⟩ => h0 | ⟨1, _⟩ => h1 | ⟨2, _⟩ => hb

theorem made_R4 (c : Dev nD) : atOut_R4 m c (Pipeline.arrRef spec4 2) = (dat_R4 (atIn_R4 m) c).arrAt 2 cfg4.N :=
  atExit_R4_arr m c 2

theorem rest_R4 (c : Dev nD) :
    (Pipeline.scopedRest (Ix := Unit) (Name := ℕ) (U := UR sig nD τ) (Lvl := ℕ) (Val := Elt F) spec4 c : sProp 𝕄)
      = iprop((∃ d, owns (c : Thread nD τ) acc_R4 fullShare d)
          ∗ Pipeline.scopedRestBut (Ix := Unit) (Name := ℕ) (U := UR sig nD τ) (Lvl := ℕ) (Val := Elt F) spec4 c [cc4_scratch0]) := by
  rw [scopedRest4_split]
  simp only [acc_R4, owns_whole]
  rfl

set_option backward.isDefEq.respectTransparency.types false in
def seg_R4 : Pipeline.RegionSeg (pcfgs (F := F)) adm (pdats m) () defs₀ 𝒱₀ L lv (4 : Fin 6) :=
  segOf m (4 : Fin 6) launch4 (atEntry_R4 m) (atExit_R4 m) (fun c => body_R4 (atIn_R4 m) c)
    (fun c => (pdats m (4 : Fin 6) c).share_full fun _ => rfl) (fun _ _ => rfl) (fun _ _ => rfl) (fun _ _ => rfl)
    (fun c => between_enter c acc_R4 _ _ (rest_R4 c) (sumAfter_R4 (atIn_R4 m) c))
    (fun c => between_leave c acc_R4 _ _ (rest_R4 c) (sumAfter_R4 (atIn_R4 m) c) (Fin.last cfg4.N).val (Nat.le_of_lt_succ (Fin.last cfg4.N).isLt))
    (exitArr_R4 m) (exitRest_R4 m)

end Cert.Kernel.Hand
end
-- ==== Proof.Bits.SegR5.lean ====
import proofs.«140595_j18622978196102_1_alg».proof.Proof.Bits.Bounds

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R5 : (c : Dev nD) → (b : Ref sig .tc) → Buf (Elt F) ((c : Thread nD τ).loc b) := fun c b => atExit_R5 m c b

theorem exitArr_R5 (c : Dev nD) (w : Fin cfg5.W) :
    (dat_R5 (atIn_R5 m) c).arrAt w cfg5.N = atOut_R5 m c (Pipeline.arrRef spec5 w) := (atExit_R5_arr m c w).symm
theorem exitRest_R5 (c : Dev nD) : ∀ b, b ∉ Finset.univ.image (Pipeline.arrRef spec5) → atOut_R5 m c b = atIn_R5 m c b :=
  fun b hb => atExit_R5_of_ne m c b fun w e => hb (Finset.mem_image.mpr ⟨w, Finset.mem_univ _, e⟩)

-- Every array but the region's output is, after the region, as before it: an input array is only read, any other is not touched.
theorem kept_R5 (c : Dev nD) (b : Ref sig .tc) (hb : Pipeline.arrRef spec5 2 ≠ b) : atOut_R5 m c b = atIn_R5 m c b := by
  by_cases h0 : Pipeline.arrRef spec5 0 = b
  · subst h0
    exact (atExit_R5_arr m c 0).trans (((dat_R5 (atIn_R5 m) c).arrAt_in 0 rfl _).trans (dat_R5_A (atIn_R5 m) c 0))
  by_cases h1 : Pipeline.arrRef spec5 1 = b
  · subst h1
    exact (atExit_R5_arr m c 1).trans (((dat_R5 (atIn_R5 m) c).arrAt_in 1 rfl _).trans (dat_R5_A (atIn_R5 m) c 1))
  exact atExit_R5_of_ne m c b fun w => match w with | ⟨0, _⟩ => h0 | ⟨1, _⟩ => h1 | ⟨2, _⟩ => hb

theorem made_R5 (c : Dev nD) : atOut_R5 m c (Pipeline.arrRef spec5 2) = (dat_R5 (atIn_R5 m) c).arrAt 2 cfg5.N :=
  atExit_R5_arr m c 2

theorem rest_R5 (c : Dev nD) :
    (Pipeline.scopedRest (Ix := Unit) (Name := ℕ) (U := UR sig nD τ) (Lvl := ℕ) (Val := Elt F) spec5 c : sProp 𝕄)
      = iprop((∃ d, owns (c : Thread nD τ) acc_R5 fullShare d)
          ∗ Pipeline.scopedRestBut (Ix := Unit) (Name := ℕ) (U := UR sig nD τ) (Lvl := ℕ) (Val := Elt F) spec5 c [cc5_scratch0]) := by
  rw [scopedRest5_split]
  simp only [acc_R5, owns_whole]
  rfl

set_option backward.isDefEq.respectTransparency.types false in
def seg_R5 : Pipeline.RegionSeg (pcfgs (F := F)) adm (pdats m) () defs₀ 𝒱₀ L lv (5 : Fin 6) :=
  segOf m (5 : Fin 6) launch5 (atEntry_R5 m) (atExit_R5 m) (fun c => body_R5 (atIn_R5 m) c)
    (fun c => (pdats m (5 : Fin 6) c).share_full fun _ => rfl) (fun _ _ => rfl) (fun _ _ => rfl) (fun _ _ => rfl)
    (fun c => between_enter c acc_R5 _ _ (rest_R5 c) (sumAfter_R5 (atIn_R5 m) c))
    (fun c => between_leave c acc_R5 _ _ (rest_R5 c) (sumAfter_R5 (atIn_R5 m) c) (Fin.last cfg5.N).val (Nat.le_of_lt_succ (Fin.last cfg5.N).isLt))
    (exitArr_R5 m) (exitRest_R5 m)

end Cert.Kernel.Hand
end
-- ==== Proof.Bits.Whole.lean ====
import proofs.«140595_j18622978196102_1_alg».proof.Proof.Bits.SegR0
import proofs.«140595_j18622978196102_1_alg».proof.Proof.Bits.SegR1
import proofs.«140595_j18622978196102_1_alg».proof.Proof.Bits.SegR2
import proofs.«140595_j18622978196102_1_alg».proof.Proof.Bits.SegR3
import proofs.«140595_j18622978196102_1_alg».proof.Proof.Bits.SegR4
import proofs.«140595_j18622978196102_1_alg».proof.Proof.Bits.SegR5
import proofs.«140595_j18622978196102_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev closing : Pipeline.HostSeg (Name := ℕ) (U := UR sig nD τ) (pcfgs (F := F)) defs₀ 𝒱₀ L lv :=
  Pipeline.HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (at6 m) (riding (F := F))

abbrev items : List (Pipeline.Seg (pcfgs (F := F)) adm (pdats m) () defs₀ 𝒱₀ L lv) :=
  [ .region (seg_R0 m), .region (seg_R1 m), .region (seg_R2 m), .region (seg_R3 m), .region (seg_R4 m), .region (seg_R5 m),
    .host (closing m) ]

theorem main_items (c : Dev nD) : main (F := F) c = Pipeline.Seg.run (items m) :=
  main_segs adm (pdats m) () 𝒱₀ L lv (closing m) (seg_R0 m) (seg_R1 m) (seg_R2 m) (seg_R3 m) (seg_R4 m) (seg_R5 m) rfl c

abbrev atEnd (c : Dev nD) : sProp 𝕄 :=
  iprop(StableHlo.held (c : Thread nD τ) (Pipeline.ucRefs τ sig) (at7 m c) ∗ ∃ r, prngReg c r)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = at7 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (at0 m)) (Tₙ := atEnd m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m c) ∗ riding (F := F) c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem at7_of_unwritten (c : Dev nD) (r : Ref sig .tc) (h : r ∉ hostOps6_W) : at7 m c r = at6 m c r :=
  StableHlo.after_of_writes_sub hostOps6 _ hostOps6_writes h

theorem at6_of_argument (c : Dev nD) (b : Ref sig .tc)
    (h0 : Pipeline.arrRef spec0 2 ≠ b) (h1 : Pipeline.arrRef spec1 2 ≠ b) (h2 : Pipeline.arrRef spec2 2 ≠ b)
    (h3 : Pipeline.arrRef spec3 2 ≠ b) (h4 : Pipeline.arrRef spec4 2 ≠ b) (h5 : Pipeline.arrRef spec5 2 ≠ b) :
    at6 m c b = m ((c : Thread nD τ).loc b) :=
  (kept_R5 m c b h5).trans <| (kept_R4 m c b h4).trans <| (kept_R3 m c b h3).trans <| (kept_R2 m c b h2).trans <|
    (kept_R1 m c b h1).trans <| (kept_R0 m c b h0).trans rfl

theorem run_result : θ_run defs (onTc (τ := τ) (main (F := F))) ⟨m, fun _ => 0, ρ⟩ (fun r => ∀ c : Dev nD,
      r.2.mem ((c.tc : Thread nD τ).loc main_v8) = at7 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_unscoped main_v8 (by decide)),
     (h c _ (mem_unscoped main_arg0 (by decide))).trans ((at7_of_unwritten m c main_arg0 (by decide)).trans
        (at6_of_argument m c main_arg0 (by decide) (by decide) (by decide) (by decide) (by decide) (by decide))),
     (h c _ (mem_unscoped main_arg1 (by decide))).trans ((at7_of_unwritten m c main_arg1 (by decide)).trans
        (at6_of_argument m c main_arg1 (by decide) (by decide) (by decide) (by decide) (by decide) (by decide))),
     (h c _ (mem_unscoped main_arg2 (by decide))).trans ((at7_of_unwritten m c main_arg2 (by decide)).trans
        (at6_of_argument m c main_arg2 (by decide) (by decide) (by decide) (by decide) (by decide) (by decide)))⟩)
    (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand
end
-- ==== Proof.StepRow.lean ====
import proofs.«140595_j18622978196102_1_alg».proof.Proof.Gen.KernelIdeal.Launch
import proofs.«140595_j18622978196102_1_alg».proof.Proof.Gen.KernelIdeal.Skeleton
import proofs.«140595_j18622978196102_1_alg».proof.Proof.Gen.KernelIdeal.Points
import proofs.«140595_j18622978196102_1_alg».proof.Proof.BlockSum
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (stepSum runSum)

variable {F : FTy → Type} [FloatOps F]

local notation "𝕄" => MT nD τ sig Unit (Elt F) ℕ (UR sig nD τ) ℕ

-- The grid is (row block, column block, K block); a point is the first of its run of K blocks, or the last.
abbrev firstK_row (i : grid0.Coords) : Prop := (Scalar.cmpi .ne (Scalar.extui (Scalar.cmpi .eq (BitVec.ofNat 32 (i 2).val) 0#32)) 0#32) = 1#1
abbrev lastK_row (i : grid0.Coords) : Prop := k0_cond2 i = 1#1

theorem firstK_row_iff : ∀ t : Fin cfg0.N, firstK_row (grid0.coords t) ↔ t.val % 4 = 0 :=
  (by decide +kernel : ∀ t : Fin grid0.N, firstK_row (grid0.coords t) ↔ t.val % 4 = 0)
theorem lastK_row_iff : ∀ t : Fin cfg0.N, lastK_row (grid0.coords t) ↔ t.val % 4 = 3 :=
  (by decide +kernel : ∀ t : Fin grid0.N, lastK_row (grid0.coords t) ↔ t.val % 4 = 3)

abbrev blockAll : Rect S1024x1024 := Rect.unit (s := S1024x1024) ![0, 0] S1024x1024.size inb_S1024x1024_S1024x1024_0_0
theorem zeroOff : (![0, 0] : Fin 2 → Nat) = fun _ => 0 := funext fun a => by fin_cases a <;> rfl

theorem coverOne {e : EltTy} (p : Vec F S1024x1024 e) (y : S1024x1024.Idx) :
    ∃ pc ∈ ([⟨blockAll, p⟩] : List (View.Piece (Elt F) S1024x1024 e)), y ∈ pc.1.set :=
  View.cover_of_tiled [⟨blockAll, p⟩] S1024x1024.size (by rfl) y

theorem coverHead {e : EltTy} (p : Vec F S1024x1024 e) (L : List (View.Piece (Elt F) S1024x1024 e)) (y : S1024x1024.Idx) :
    ∃ pc ∈ ((⟨blockAll, p⟩ : View.Piece (Elt F) S1024x1024 e) :: L), y ∈ pc.1.set := by
  obtain ⟨pc, hm, hy⟩ := coverOne p y
  rw [List.mem_singleton] at hm; subst hm
  exact ⟨_, List.mem_cons_self, hy⟩

-- The running sum after a point: the old sum plus the point's block product; at the first point of a run the old sum is the cleared one.
abbrev addBlock_row (x w s : Vec F S1024x1024 .f32) : Vec F S1024x1024 .f32 := k0_pay2 x w s
abbrev startBlock_row (x w : Vec F S1024x1024 .f32) : Vec F S1024x1024 .f32 := k0_pay2 x w (k0_pay1 (F := F))

-- The three step lemmas hold of any body that is this kernel: the regions that run it differ in nothing else.
set_option maxHeartbeats 4000000 in
theorem step_inner_row {body} (hb : body = cc0_matmul_abt_kernel (F := F)) (c : Dev nD) (i : grid0.Coords) (hc0 : ¬firstK_row i) (hc1 : ¬lastK_row i)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (addBlock_row x w s)) -∗ K ⟨⟩))
      ⊢ wp frame (wpE (defs₀ (F := F)) Variants.none c none) E (body i a3 h3 a4 h4 a5 h5 a6 h6) K := by
  subst hb
  simp only [cc0_matmul_abt_kernel_eq_skeleton]; unfold cc0_matmul_abt_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  rw [View.read_writes_eq_canon _ _ _ (coverOne _), View.canon_unit_zero zeroOff]
  simp only [View.readAt_eq_ld, h3.read_unread, h4.read_unread, h6.read_unread, View.ld_unit_zero (S := S1024x1024) zeroOff]

set_option maxHeartbeats 4000000 in
theorem step_first_row {body} (hb : body = cc0_matmul_abt_kernel (F := F)) (c : Dev nD) (i : grid0.Coords) (hc0 : firstK_row i) (hc1 : ¬lastK_row i)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (startBlock_row x w)) -∗ K ⟨⟩))
      ⊢ wp frame (wpE (defs₀ (F := F)) Variants.none c none) E (body i a3 h3 a4 h4 a5 h5 a6 h6) K := by
  subst hb
  simp only [cc0_matmul_abt_kernel_eq_skeleton]; unfold cc0_matmul_abt_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  sl_unfold_words
  rw [View.read_writes_eq_canon _ _ _ (coverHead _ _), View.canon_cons_unit_zero zeroOff]
  simp only [View.readAt_eq_ld, h3.read_unread, h4.read_unread, View.ld_unit_zero (S := S1024x1024) zeroOff,
    View.readCov_unit_zero (S := S1024x1024) _ zeroOff]

set_option maxHeartbeats 4000000 in
theorem step_last_row {body} (hb : body = cc0_matmul_abt_kernel (F := F)) (c : Dev nD) (i : grid0.Coords) (hc0 : ¬firstK_row i) (hc1 : lastK_row i)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare (k0_pay3 (addBlock_row x w s))
            ∗ owns (c : Thread nD τ) a6 fullShare (addBlock_row x w s)) -∗ K ⟨⟩))
      ⊢ wp frame (wpE (defs₀ (F := F)) Variants.none c none) E (body i a3 h3 a4 h4 a5 h5 a6 h6) K := by
  subst hb
  simp only [cc0_matmul_abt_kernel_eq_skeleton]; unfold cc0_matmul_abt_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr
    swap; · iexact HO
    ipureintro
    sl_unfold_words
    rw [View.read_writes_eq_canon _ _ _ (coverOne _), View.canon_unit_zero zeroOff]
    simp only [View.readAt_eq_ld, h3.read_unread, h4.read_unread, h6.read_unread, View.ld_unit_zero (S := S1024x1024) zeroOff,
      View.readCov_unit_zero (S := S1024x1024) _ zeroOff]
  iexists _; isplitr
  swap; · iexact HS
  ipureintro
  sl_unfold_words
  rw [View.read_writes_eq_canon _ _ _ (coverOne _), View.canon_unit_zero zeroOff]
  simp only [View.readAt_eq_ld, h3.read_unread, h4.read_unread, h6.read_unread, View.ld_unit_zero (S := S1024x1024) zeroOff]

-- What a point finds in the scratch: anything if it starts a run (it clears the sum), else the sum the point before left.
def found (c : Dev nD) (a6 : Memref sig .tc .vmem S1024x1024 .f32) (n : ℕ) (s : Vec F S1024x1024 .f32) : sProp 𝕄 :=
  if n % 4 = 0 then iprop(∃ d, owns (c : Thread nD τ) a6 fullShare d) else owns (c : Thread nD τ) a6 fullShare s

-- Between points the scratch holds the running sum after the last point run (before the first point, anything), beside what the region sets aside.
def between (c : Dev nD) (acc : Memref sig .tc .vmem S1024x1024 .f32) (A : sProp 𝕄) {N : ℕ} (sum : (n : ℕ) → n < N → Vec F S1024x1024 .f32) : (n : ℕ) → n ≤ N → sProp 𝕄
  | 0, _ => iprop((∃ d, owns (c : Thread nD τ) acc fullShare d) ∗ A)
  | n + 1, h => iprop(owns (c : Thread nD τ) acc fullShare (sum n h) ∗ A)

theorem between_some (c : Dev nD) (acc : Memref sig .tc .vmem S1024x1024 .f32) (A : sProp 𝕄) {N : ℕ} (sum : (n : ℕ) → n < N → Vec F S1024x1024 .f32) (n : ℕ) (h : n ≤ N) :
    between c acc A sum n h ⊢ iprop((∃ d, owns (c : Thread nD τ) acc fullShare d) ∗ A) := by
  cases n with
  | zero => exact .rfl
  | succ n =>
    show iprop(owns (c : Thread nD τ) acc fullShare (sum n h) ∗ A) ⊢ _
    iintro ⟨H, Hr⟩
    isplitl [H]; · iexists _; iexact H
    iexact Hr

theorem between_found (c : Dev nD) (acc : Memref sig .tc .vmem S1024x1024 .f32) (A : sProp 𝕄) {N : ℕ} (sum : (n : ℕ) → n < N → Vec F S1024x1024 .f32) (t : Fin N) :
    between c acc A sum t.val (Nat.le_of_lt t.isLt)
      ⊢ iprop(found c acc t.val (sum (t.val - 1) (Nat.lt_of_le_of_lt (Nat.sub_le _ _) t.isLt)) ∗ A) := by
  unfold found
  by_cases h0 : t.val % 4 = 0
  · rw [if_pos h0]; exact between_some c acc A sum _ _
  · rw [if_neg h0]
    obtain ⟨n, hn⟩ := t
    cases n with
    | zero => exact absurd (Nat.zero_mod _) h0
    | succ n => exact .rfl

theorem between_left (c : Dev nD) (acc : Memref sig .tc .vmem S1024x1024 .f32) (A : sProp 𝕄) {N : ℕ} (sum : (n : ℕ) → n < N → Vec F S1024x1024 .f32) (t : Fin N) (s : Vec F S1024x1024 .f32) (hs : sum t.val t.isLt = s) :
    iprop(owns (c : Thread nD τ) acc fullShare s ∗ A) ⊢ between c acc A sum (t.val + 1) t.isLt := by
  subst hs; exact .rfl

-- Entering a region its scratch holds anything; leaving it, the running sum is forgotten.
theorem between_enter (c : Dev nD) (acc : Memref sig .tc .vmem S1024x1024 .f32) (rest S : sProp 𝕄)
    (hS : S = iprop((∃ d, owns (c : Thread nD τ) acc fullShare d) ∗ rest)) {N : ℕ} (sum : (n : ℕ) → n < N → Vec F S1024x1024 .f32) :
    iprop((∃ r, prngReg c r) ∗ S) ⊢ between c acc iprop(rest ∗ ∃ r, prngReg c r) sum 0 (Nat.zero_le N) := by
  subst hS
  show _ ⊢ iprop((∃ d, owns (c : Thread nD τ) acc fullShare d) ∗ rest ∗ ∃ r, prngReg c r)
  iintro ⟨Hp, Hs, Hrest⟩
  isplitl [Hs]; · iexact Hs
  isplitl [Hrest]; · iexact Hrest
  iexact Hp

theorem between_leave (c : Dev nD) (acc : Memref sig .tc .vmem S1024x1024 .f32) (rest S : sProp 𝕄)
    (hS : S = iprop((∃ d, owns (c : Thread nD τ) acc fullShare d) ∗ rest)) {N : ℕ} (sum : (n : ℕ) → n < N → Vec F S1024x1024 .f32)
    (n : ℕ) (h : n ≤ N) :
    between c acc iprop(rest ∗ ∃ r, prngReg c r) sum n h ⊢ iprop((∃ r, prngReg c r) ∗ S) := by
  subst hS
  refine (between_some c acc _ sum n h).trans ?_
  iintro ⟨Hs, Hrest, Hp⟩
  isplitl [Hp]; · iexact Hp
  isplitl [Hs]; · iexact Hs
  iexact Hrest

-- The three steps as one: point number n starts a run when n % 4 = 0 and ends one, writing the output block, when n % 4 = 3.
theorem step_row {body} (hb : body = cc0_matmul_abt_kernel (F := F)) (c : Dev nD) (i : grid0.Coords) (n : ℕ)
    (hf : firstK_row i ↔ n % 4 = 0) (hl : lastK_row i ↔ n % 4 = 3)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) (o : Vec F S1024x1024 .bf16) (E : Set ℕ) (K : PUnit → sProp 𝕄) :
    iprop(owns (c : Thread nD τ) a3 fullShare x ∗ owns (c : Thread nD τ) a4 fullShare w ∗ owns (c : Thread nD τ) a5 fullShare o
        ∗ found c a6 n s
        ∗ (iprop(owns (c : Thread nD τ) a3 fullShare x ∗ owns (c : Thread nD τ) a4 fullShare w
            ∗ owns (c : Thread nD τ) a5 fullShare (if n % 4 = 3 then k0_pay3 ((stepSum (startBlock_row (F := F)) (addBlock_row (F := F)) n x w s)) else o)
            ∗ owns (c : Thread nD τ) a6 fullShare (stepSum (startBlock_row (F := F)) (addBlock_row (F := F)) n x w s)) -∗ K ⟨⟩))
      ⊢ wp frame (wpE (defs₀ (F := F)) Variants.none c none) E (body i a3 h3 a4 h4 a5 h5 a6 h6) K := by
  unfold found Cert.Spec.stepSum
  by_cases h0 : n % 4 = 0
  · have hn3 : ¬n % 4 = 3 := by omega
    simp only [if_pos h0, if_neg hn3]
    iintro ⟨H0, H1, HO, ⟨%d, HS⟩, Hk⟩
    iapply (step_first_row hb c i (hf.mpr h0) (fun h => hn3 (hl.mp h)) a3 h3 a4 h4 a5 h5 a6 h6 x w d o E K)
    isplitl [H0]; · iexact H0
    isplitl [H1]; · iexact H1
    isplitl [HO]; · iexact HO
    isplitl [HS]; · iexact HS
    iexact Hk
  · simp only [if_neg h0]
    by_cases hn3 : n % 4 = 3
    · simp only [if_pos hn3]
      exact step_last_row hb c i (fun h => h0 (hf.mp h)) (hl.mpr hn3) a3 h3 a4 h4 a5 h5 a6 h6 x w s o E K
    · simp only [if_neg hn3]
      exact step_inner_row hb c i (fun h => h0 (hf.mp h)) (fun h => hn3 (hl.mp h)) a3 h3 a4 h4 a5 h5 a6 h6 x w s o E K

-- One grid point: from the state between points and the three blocks it is handed, to the next state and the blocks as it leaves them.
theorem point_row {body} (hb : body = cc0_matmul_abt_kernel (F := F)) (c : Dev nD) (i : grid0.Coords) (n : ℕ)
    (hf : firstK_row i ↔ n % 4 = 0) (hl : lastK_row i ↔ n % 4 = 3)
    (a3 : Memref sig .tc .vmem S1024x1024 .f32) (h3 : a3.IsWhole) (a4 : Memref sig .tc .vmem S1024x1024 .f32) (h4 : a4.IsWhole)
    (a5 : Memref sig .tc .vmem S1024x1024 .bf16) (h5 : a5.IsWhole) (a6 : Memref sig .tc .vmem S1024x1024 .f32) (h6 : a6.IsWhole)
    (x w s : Vec F S1024x1024 .f32) {D0 D1 D2 : Type} (bef : D2 → Vec F S1024x1024 .bf16) (Φin Φout O L2 A : sProp 𝕄)
    (hin : Φin ⊢ iprop(found c a6 n s ∗ A))
    (hout : iprop(owns (c : Thread nD τ) a6 fullShare (stepSum (startBlock_row (F := F)) (addBlock_row (F := F)) n x w s) ∗ A) ⊢ Φout)
    (hL : ∀ d, owns (c : Thread nD τ) a5 fullShare (if n % 4 = 3 then k0_pay3 ((stepSum (startBlock_row (F := F)) (addBlock_row (F := F)) n x w s)) else bef d) ⊢ L2) :
    iprop(Φin ∗ O ∗ (∃ _d : D0, owns (c : Thread nD τ) a3 fullShare x) ∗ (∃ _d : D1, owns (c : Thread nD τ) a4 fullShare w)
        ∗ (∃ d : D2, owns (c : Thread nD τ) a5 fullShare (bef d)))
      ⊢ wp frame (wpE (defs₀ (F := F)) Variants.none c none) Set.univ (body i a3 h3 a4 h4 a5 h5 a6 h6)
          (fun _ => iprop(Φout ∗ O ∗ owns (c : Thread nD τ) a3 fullShare x ∗ owns (c : Thread nD τ) a4 fullShare w ∗ L2)) := by
  iintro ⟨HB, Ho, ⟨%d0, H0⟩, ⟨%d1, H1⟩, ⟨%d2, H2⟩⟩
  ihave HB' := (hin) $$ HB
  icases HB' with ⟨HS, Hr⟩
  iapply (step_row hb c i n hf hl a3 h3 a4 h4 a5 h5 a6 h6 x w s (bef d2) Set.univ _)
  isplitl [H0]; · iexact H0
  isplitl [H1]; · iexact H1
  isplitl [H2]; · iexact H2
  isplitl [HS]; · iexact HS
  iintro ⟨H0, H1, H2, HS⟩
  isplitl [HS Hr]
  · iapply hout
    isplitl [HS]; · iexact HS
    iexact Hr
  isplitl [Ho]; · iexact Ho
  isplitl [H0]; · iexact H0
  isplitl [H1]; · iexact H1
  iapply (hL d2); iexact H2

end Cert.KernelIdeal.Hand
end
-- ==== Proof.PipeR0.lean ====
import proofs.«140595_j18622978196102_1_alg».proof.Proof.StepRow

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R0

variable (V : (c : Dev nD) → (b : Ref sig .tc) → Buf (Elt F) ((c : Thread nD τ).loc b))

-- The block of operand w at point t, cut out of its array as the region finds it.
def blk_R0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xBlk_R0 (c : Dev nD) (t : Fin cfg0.N) : Vec F S1024x1024 .f32 := blk_R0 V c 0 t
abbrev wBlk_R0 (c : Dev nD) (t : Fin cfg0.N) : Vec F S1024x1024 .f32 := blk_R0 V c 1 t

abbrev sumAfter_R0 (c : Dev nD) : (n : ℕ) → n < cfg0.N → Vec F S1024x1024 .f32 :=
  runSum (startBlock_row (F := F)) (addBlock_row (F := F)) (xBlk_R0 V c) (wBlk_R0 V c)

abbrev acc_R0 : Memref sig .tc .vmem S1024x1024 .f32 := Memref.whole cc0_scratch0

abbrev aside_R0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

-- What every point leaves: the input blocks as found, the output block at the finished sum where it is written, the running sum between points.
def dat_R0 (c : Dev nD) : Dat τ (Elt F) Unit ℕ (UR sig nD τ) ℕ cfg0 c where
  A w := V c (Pipeline.arrRef spec0 w)
  after w t := match w with
    | ⟨0, _⟩ => blk_R0 V c 0 t
    | ⟨1, _⟩ => blk_R0 V c 1 t
    | ⟨2, _⟩ => k0_pay3 (sumAfter_R0 V c t.val t.isLt)
  Φ t := between c acc_R0 (aside_R0 c) (sumAfter_R0 V c) t.val (Nat.le_of_lt_succ t.isLt)
  q _ := fullShare
  owed _ := 0

theorem dat_R0_A (c : Dev nD) (w : Fin cfg0.W) : (dat_R0 V c).A w = V c (Pipeline.arrRef spec0 w) := by dsimp only [dat_R0]
theorem dat_R0_after0 (c : Dev nD) (t : Fin cfg0.N) : (dat_R0 V c).after 0 t = blk_R0 V c 0 t := by dsimp only [dat_R0]
theorem dat_R0_after1 (c : Dev nD) (t : Fin cfg0.N) : (dat_R0 V c).after 1 t = blk_R0 V c 1 t := by dsimp only [dat_R0]
theorem dat_R0_after2 (c : Dev nD) (t : Fin cfg0.N) : (dat_R0 V c).after 2 t = k0_pay3 (sumAfter_R0 V c t.val t.isLt) := by dsimp only [dat_R0]

theorem dat_R0_before0 (c : Dev nD) (t : Fin cfg0.N) (d) : (dat_R0 V c).before 0 t d = blk_R0 V c 0 t :=
  ((dat_R0 V c).before_in_eq_fetched 0 rfl (fun _ => rfl) (fun _ _ _ => rfl)
    (fun t => by rw [dat_R0_after0]; unfold Dat.blockOf blk_R0; rw [dat_R0_A]; try rfl) t d).trans
    (by unfold Dat.fetched Dat.blockOf blk_R0; rw [dat_R0_A]; try rfl)
theorem dat_R0_before1 (c : Dev nD) (t : Fin cfg0.N) (d) : (dat_R0 V c).before 1 t d = blk_R0 V c 1 t :=
  ((dat_R0 V c).before_in_eq_fetched 1 rfl (fun _ => rfl) (fun _ _ _ => rfl)
    (fun t => by rw [dat_R0_after1]; unfold Dat.blockOf blk_R0; rw [dat_R0_A]; try rfl) t d).trans
    (by unfold Dat.fetched Dat.blockOf blk_R0; rw [dat_R0_A]; try rfl)

theorem live_R0_0 : ∀ t : Fin cfg0.N, cfg0.idle 0 (grid0.coords t) = false := by decide +kernel
theorem live_R0_1 : ∀ t : Fin cfg0.N, cfg0.idle 1 (grid0.coords t) = false := by decide +kernel
theorem idle_R0_2 : ∀ t : Fin cfg0.N, ¬t.val % 4 = 3 → cfg0.idle 2 (grid0.coords t) = true := by decide +kernel
theorem noFlush_R0_2 : ∀ t : Fin cfg0.N, ¬t.val % 4 = 3 → (cfg0.win 2).flush t = false := by decide +kernel
theorem live_R0_2 : ∀ t : Fin cfg0.N, t.val % 4 = 3 → cfg0.idle 2 (grid0.coords t) = false := by decide +kernel

end Data_R0

section Obligation_R0

variable (V : (c : Dev nD) → (b : Ref sig .tc) → Buf (Elt F) ((c : Thread nD τ).loc b))

def handed_R0 (c : Dev nD) (t : Fin cfg0.N) : sProp 𝕄 :=
  iprop((dat_R0 V c).Φ t.castSucc ∗ (dat_R0 V c).owesAt () t.castSucc
    ∗ (∃ d, owns (c : Thread nD τ) (st0_0 t) fullShare ((dat_R0 V c).before 0 t d))
    ∗ (∃ d, owns (c : Thread nD τ) (st0_1 t) fullShare ((dat_R0 V c).before 1 t d))
    ∗ (∃ d, owns (c : Thread nD τ) (st0_2 t) fullShare ((dat_R0 V c).before 2 t d)))

def returned_R0 (c : Dev nD) (t : Fin cfg0.N) : sProp 𝕄 :=
  iprop((dat_R0 V c).Φ t.succ ∗ (dat_R0 V c).owesAt () t.succ
    ∗ (dat_R0 V c).leavesExact 0 t ∗ (dat_R0 V c).leavesExact 1 t ∗ (dat_R0 V c).leavesExact 2 t)

theorem leaves_R0_0 (c : Dev nD) (t : Fin cfg0.N) :
    (dat_R0 V c).leavesExact 0 t = owns (c : Thread nD τ) (st0_0 t) fullShare (blk_R0 V c 0 t) := by
  unfold Dat.leavesExact; rw [live_R0_0 t, dat_R0_after0]
theorem leaves_R0_1 (c : Dev nD) (t : Fin cfg0.N) :
    (dat_R0 V c).leavesExact 1 t = owns (c : Thread nD τ) (st0_1 t) fullShare (blk_R0 V c 1 t) := by
  unfold Dat.leavesExact; rw [live_R0_1 t, dat_R0_after1]

-- The output block after the point: the finished sum where the point ends a run, else as found.
theorem leaves_R0_2 (c : Dev nD) (t : Fin cfg0.N) (d) :
    owns (c : Thread nD τ) (st0_2 t) fullShare (if t.val % 4 = 3 then k0_pay3 ((stepSum (startBlock_row (F := F)) (addBlock_row (F := F)) t.val (xBlk_R0 V c t) (wBlk_R0 V c t) (sumAfter_R0 V c (t.val - 1) (Nat.lt_of_le_of_lt (Nat.sub_le _ _) t.isLt)))) else (dat_R0 V c).before 2 t d)
      ⊢ (dat_R0 V c).leavesExact 2 t := by
  rw [← runSum_step]
  by_cases h3 : t.val % 4 = 3
  · rw [if_pos h3, show (dat_R0 V c).leavesExact 2 t = owns (c : Thread nD τ) (st0_2 t) fullShare ((dat_R0 V c).after 2 t) from by
      unfold Dat.leavesExact; rw [live_R0_2 t h3], dat_R0_after2]
  · rw [if_neg h3, Dat.leavesExact_idle (dat_R0 V c) 2 t (idle_R0_2 t h3) (noFlush_R0_2 t h3)]
    iintro H; iexists _; iexact H

set_option maxHeartbeats 2000000 in
theorem point_R0 (c : Dev nD) (t : Fin cfg0.N) :
    handed_R0 V c t ⊢ wp frame (wpE (defs₀ (F := F)) Variants.none c none) Set.univ (bodyAt0 t) (fun _ => returned_R0 V c t) := by
  unfold handed_R0 returned_R0 bodyAt0
  simp only [dat_R0_before0, dat_R0_before1, leaves_R0_0, leaves_R0_1]
  exact point_row (body := cc0_matmul_abt_kernel) rfl c (grid0.coords t) t.val (firstK_row_iff t) (lastK_row_iff t) _ _ _ _ _ _ _ _
    (xBlk_R0 V c t) (wBlk_R0 V c t) (sumAfter_R0 V c (t.val - 1) (Nat.lt_of_le_of_lt (Nat.sub_le _ _) t.isLt))
    (fun d => (dat_R0 V c).before 2 t d) _ _ _ _ (aside_R0 c)
    (between_found c acc_R0 (aside_R0 c) (sumAfter_R0 V c) t)
    (between_left c acc_R0 (aside_R0 c) (sumAfter_R0 V c) t _ (runSum_step _ _ _ _ t))
    (fun d => leaves_R0_2 V c t d)

theorem body_R0 (c : Dev nD) : BodyObligation (dat_R0 (F := F) V c) (defs₀ (F := F)) Variants.none () Set.univ := fun t => by
  rw [bigSep_W0, bigSep_W0]
  exact point_R0 V c t

end Obligation_R0

end Cert.KernelIdeal.Hand
end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Sq : Type := (⟨2, ![4096, 4096]⟩ : Shape).Idx → EReal

def rowDotAt (X W : Sq) (r c : Fin 4096) : EReal := ∑ k : Fin 4096, X (ix2 r k) * W (ix2 c k)
def colDotAt (W R : Sq) (r c : Fin 4096) : EReal := ∑ k : Fin 4096, W (ix2 k r) * R (ix2 k c)

def rowDot (X W : Sq) : Sq := fun i => rowDotAt X W ⟨(i 0).val, (i 0).isLt⟩ ⟨(i 1).val, (i 1).isLt⟩
def colDot (W R : Sq) : Sq := fun i => colDotAt W R ⟨(i 0).val, (i 0).isLt⟩ ⟨(i 1).val, (i 1).isLt⟩

theorem rowDot_ix2 (X W : Sq) (r c : Fin 4096) : rowDot X W (ix2 r c) = rowDotAt X W r c := rfl
theorem colDot_ix2 (W R : Sq) (r c : Fin 4096) : colDot W R (ix2 r c) = colDotAt W R r c := rfl

end Cert.Spec

end
-- ==== Proof.ValueRow.lean ====
import proofs.«140595_j18622978196102_1_alg».proof.Proof.StepRow
import proofs.«140595_j18622978196102_1_alg».proof.Proof.Spec
import proofs.«140595_j18622978196102_1_alg».proof.Proof.BlockSum
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

-- Over the extended reals the body's block product is a plain sum of products, and a format change is the identity.
theorem lhsRow_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhsContr_row (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhsRow_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhsContr_row (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem blockProd_row (x w : FVec Ideal S1024x1024 .bf16) (p q : Fin 1024) :
    matmul (F := Ideal) dot_S1024x1024_S1024x1024_S1024x1024_1_1_0_0_n_n none x w (constant (F := Ideal) S1024x1024 .f32 0x00000000#32) (ix2 p q)
      = ∑ kk : Fin 1024, x (ix2 p kk) * w (ix2 q kk) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhsRow_row _ _
    | ⟨1, _⟩ => exact (lhsContr_row _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhsRow_row _ _
    | ⟨1, _⟩ => exact (rhsContr_row _ _).trans hk)
  rw [el, er]

theorem addBlockAt_row (x w s : Vec Ideal S1024x1024 .f32) (p q : Fin 1024) :
    addBlock_row (F := Ideal) x w s (ix2 p q) = s (ix2 p q) + ∑ kk : Fin 1024, x (ix2 p kk) * w (ix2 q kk) := by
  show k0_pay2 (F := Ideal) x w s (ix2 p q) = _
  unfold k0_pay2
  refine (congrFun (shapeCast_self _ _) _).trans ?_
  refine (addf_apply _ _ _).trans ?_
  exact congrArg (s (ix2 p q) + ·) (blockProd_row _ _ p q)

theorem clearedAt_row (i : S1024x1024.Idx) : k0_pay1 (F := Ideal) i = 0 := by
  unfold k0_pay1
  refine (congrFun (shapeCast_self _ _) i).trans ?_
  exact Ideal.ofBits_zero_f32

theorem startBlockAt_row (x w : Vec Ideal S1024x1024 .f32) (p q : Fin 1024) :
    startBlock_row (F := Ideal) x w (ix2 p q) = 0 + ∑ kk : Fin 1024, x (ix2 p kk) * w (ix2 q kk) := by
  show addBlock_row (F := Ideal) x w (k0_pay1 (F := Ideal)) (ix2 p q) = _
  rw [addBlockAt_row, clearedAt_row]

theorem toOut_row (v : Vec Ideal S1024x1024 .f32) : k0_pay3 (F := Ideal) v = v := rfl

def termAt_row (X W : Cert.Spec.Sq) (r c : Fin 4096) (k : ℕ) : EReal :=
  if h : k < 4096 then X (ix2 r ⟨k, h⟩) * W (ix2 c ⟨k, h⟩) else 0

theorem rowDotAt_runs_row (X W : Cert.Spec.Sq) (r c : Fin 4096) :
    0 + ∑ s ∈ Finset.range (3 + 1), ∑ kk : Fin 1024, termAt_row X W r c (s * 1024 + 1 * kk.val)
      = Cert.Spec.rowDotAt X W r c := by
  rw [Cert.Spec.sum_four_runs' (termAt_row X W r c)]
  unfold Cert.Spec.rowDotAt termAt_row
  exact Finset.sum_congr rfl fun k _ => dif_pos k.isLt

section Run

variable {N : ℕ} (x : Fin N → Vec Ideal S1024x1024 .f32) (w : Fin N → Vec Ideal S1024x1024 .f32)

-- The block product of point n at an entry of the block (zero past the grid, where it is never read).
def prodAt_row (n : ℕ) (i : S1024x1024.Idx) : EReal :=
  if h : n < N then ∑ kk : Fin 1024, x ⟨n, h⟩ (ix2 (i 0 : Fin 1024) kk) * w ⟨n, h⟩ (ix2 (i 1 : Fin 1024) kk) else 0

-- At the last point of a run the running sum is zero plus the run's four block products, in point order.
theorem sumLast_row (t : Fin N) (ht : t.val % 4 = 3) (i : S1024x1024.Idx) :
    Cert.Spec.runSum (startBlock_row (F := Ideal)) (addBlock_row (F := Ideal)) x w t.val t.isLt i
      = 0 + ∑ s ∈ Finset.range (3 + 1), prodAt_row x w (4 * (t.val / 4) + s) i := by
  have hq : 4 * (t.val / 4) + 3 < N := by have := t.isLt; omega
  refine (congrFun (Cert.Spec.runSum_congr _ _ x w _ _ t.isLt hq (by omega)) i).trans ?_
  refine (congrFun (Pipeline.eq_accAt (fun n h => Cert.Spec.runSum (startBlock_row (F := Ideal)) (addBlock_row (F := Ideal)) x w n h) 4
    (fun n h => startBlock_row (x ⟨n, h⟩) (w ⟨n, h⟩))
    (fun n h acc => addBlock_row (x ⟨n, h⟩) (w ⟨n, h⟩) acc)
    (fun n h hm => Cert.Spec.runSum_first _ _ _ _ ⟨n, h⟩ hm)
    (fun n h hm => Cert.Spec.runSum_next _ _ _ _ ⟨n + 1, h⟩ hm)
    (t.val / 4) 3 (by decide) hq) i).trans ?_
  refine Pipeline.accAt_add_apply _ _ (fun _ => 0) (prodAt_row x w) (4 * (t.val / 4)) 3 ?_ ?_ 3 (Nat.le_refl _) hq i
  · intro h j
    obtain ⟨p, q, rfl⟩ : ∃ (p q : Fin 1024), j = ix2 p q := ⟨j 0, j 1, eq_ix2 j⟩
    rw [startBlockAt_row]
    unfold prodAt_row
    rw [dif_pos h]
  · intro n h acc j _ _
    obtain ⟨p, q, rfl⟩ : ∃ (p q : Fin 1024), j = ix2 p q := ⟨j 0, j 1, eq_ix2 j⟩
    rw [addBlockAt_row]
    unfold prodAt_row
    rw [dif_pos h]

end Run

section Blocks

variable {N : ℕ} (x w : Fin N → Vec Ideal S1024x1024 .f32) (X W : Cert.Spec.Sq)

-- If the blocks are cut out of the arrays X and W where the grid's index maps say (row block t / 16, column block t / 4 % 4, K block t % 4), the sum a run leaves is its block of X · Wᵀ.
theorem lastSum_row
    (hx : ∀ (t : Fin N) (p kk : Fin 1024) (i : S4096x4096.Idx), (i 0).val = t.val / 16 * 1024 + p.val → (i 1).val = t.val % 4 * 1024 + kk.val → x t (ix2 p kk) = X i)
    (hw : ∀ (t : Fin N) (q kk : Fin 1024) (i : S4096x4096.Idx), (i 0).val = t.val / 4 % 4 * 1024 + q.val → (i 1).val = t.val % 4 * 1024 + kk.val → w t (ix2 q kk) = W i)
    (t : Fin N) (ht : t.val % 4 = 3) (p q : Fin 1024) (r cc : Fin 4096)
    (hr : r.val = t.val / 16 * 1024 + p.val) (hc : cc.val = t.val / 4 % 4 * 1024 + q.val) :
    Cert.Spec.runSum (startBlock_row (F := Ideal)) (addBlock_row (F := Ideal)) x w t.val t.isLt (ix2 p q) = Cert.Spec.rowDotAt X W r cc := by
  rw [← rowDotAt_runs_row, sumLast_row x w t ht]
  refine congrArg (0 + ·) (Finset.sum_congr rfl fun s hs => ?_)
  have hs' := Finset.mem_range.mp hs
  have hn : 4 * (t.val / 4) + s < N := by have := t.isLt; omega
  unfold prodAt_row
  rw [dif_pos hn]
  refine Finset.sum_congr rfl fun kk _ => ?_
  have hk : s * 1024 + 1 * kk.val < 4096 := by have := kk.isLt; omega
  unfold termAt_row
  rw [dif_pos hk]
  refine congrArg₂ (· * ·) (hx ⟨_, hn⟩ p kk (ix2 r ⟨_, hk⟩) ?_ ?_) (hw ⟨_, hn⟩ q kk (ix2 cc ⟨_, hk⟩) ?_ ?_)
  · show r.val = (4 * (t.val / 4) + s) / 16 * 1024 + p.val; omega
  · show s * 1024 + 1 * kk.val = (4 * (t.val / 4) + s) % 4 * 1024 + kk.val; omega
  · show cc.val = (4 * (t.val / 4) + s) / 4 % 4 * 1024 + q.val; omega
  · show s * 1024 + 1 * kk.val = (4 * (t.val / 4) + s) % 4 * 1024 + kk.val; omega

end Blocks

end Cert.KernelIdeal.Hand
end
-- ==== Proof.ValueR0.lean ====
import proofs.«140595_j18622978196102_1_alg».proof.Proof.PipeR0
import proofs.«140595_j18622978196102_1_alg».proof.Proof.ValueRow

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem idx_R0 : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4)

section Blocks_R0

variable (V : (c : Dev nD) → (b : Ref sig .tc) → Buf (Elt Ideal) ((c : Thread nD τ).loc b))

theorem xBlkAt_R0 (c : Dev nD) (t : Fin cfg0.N) (p kk : Fin 1024) (i : S4096x4096.Idx)
    (hr : (i 0).val = t.val / 16 * 1024 + p.val) (hk : (i 1).val = t.val % 4 * 1024 + kk.val) :
    xBlk_R0 V c t (ix2 p kk) = V c (Pipeline.arrRef spec0 0) i := by
  obtain ⟨ea, eb, -⟩ := idx_R0 t
  show V c (Pipeline.arrRef spec0 0) (((cfg0.win 0).blk t).view.emb (ix2 p kk)) = V c (Pipeline.arrRef spec0 0) i
  refine congrArg _ (funext fun a => Fin.ext ?_)
  match a with
  | ⟨0, _⟩ => show win0_0.index t (0 : Fin 2) * 1024 + 1 * p.val = (i 0).val; omega
  | ⟨1, _⟩ => show win0_0.index t (1 : Fin 2) * 1024 + 1 * kk.val = (i 1).val; omega

theorem wBlkAt_R0 (c : Dev nD) (t : Fin cfg0.N) (q kk : Fin 1024) (i : S4096x4096.Idx)
    (hr : (i 0).val = t.val / 4 % 4 * 1024 + q.val) (hk : (i 1).val = t.val % 4 * 1024 + kk.val) :
    wBlk_R0 V c t (ix2 q kk) = V c (Pipeline.arrRef spec0 1) i := by
  obtain ⟨-, -, ea, eb, -⟩ := idx_R0 t
  show V c (Pipeline.arrRef spec0 1) (((cfg0.win 1).blk t).view.emb (ix2 q kk)) = V c (Pipeline.arrRef spec0 1) i
  refine congrArg _ (funext fun a => Fin.ext ?_)
  match a with
  | ⟨0, _⟩ => show win0_1.index t (0 : Fin 2) * 1024 + 1 * q.val = (i 0).val; omega
  | ⟨1, _⟩ => show win0_1.index t (1 : Fin 2) * 1024 + 1 * kk.val = (i 1).val; omega

theorem flushed_R0 (c : Dev nD) (t : Fin cfg0.N) (hf : (cfg0.win 2).flush t = true) :
    (dat_R0 (F := Ideal) V c).flushed 2 t
      = ((cfg0.win 2).blk t).view.read (Elt Ideal)
          (Cert.Spec.rowDot (V c (Pipeline.arrRef spec0 0)) (V c (Pipeline.arrRef spec0 1))) := by
  have ht : t.val % 4 = 3 := (flush0_2 t).mp hf
  have hN : t.val < 64 := lt_of_lt_of_eq t.isLt (show cfg0.N = 64 from N_0)
  obtain ⟨-, -, -, -, ec, ed⟩ := idx_R0 t
  show (cfg0.win 2).cut (grid0.coords t) ((dat_R0 (F := Ideal) V c).after 2 t) = _
  rw [dat_R0_after2, toOut_row]
  refine funext fun (j : S1024x1024.Idx) => ?_
  obtain ⟨p, q, rfl⟩ : ∃ (p q : Fin 1024), j = ix2 p q := ⟨j 0, j 1, eq_ix2 j⟩
  have hp := p.isLt
  have hq := q.isLt
  have e : ((cfg0.win 2).blk t).view.emb (ix2 p q)
      = (ix2 (⟨t.val / 16 * 1024 + p.val, by omega⟩ : Fin 4096) (⟨t.val / 4 % 4 * 1024 + q.val, by omega⟩ : Fin 4096) : S4096x4096.Idx) :=
    funext fun a => Fin.ext (by
      match a with
      | ⟨0, _⟩ => show win0_2.index t (0 : Fin 2) * 1024 + 1 * p.val = t.val / 16 * 1024 + p.val; omega
      | ⟨1, _⟩ => show win0_2.index t (1 : Fin 2) * 1024 + 1 * q.val = t.val / 4 % 4 * 1024 + q.val; omega)
  show sumAfter_R0 V c t.val t.isLt (ix2 p q)
    = Cert.Spec.rowDot (V c (Pipeline.arrRef spec0 0)) (V c (Pipeline.arrRef spec0 1)) (((cfg0.win 2).blk t).view.emb (ix2 p q))
  rw [e, Cert.Spec.rowDot_ix2]
  exact lastSum_row _ _ _ _ (xBlkAt_R0 V c) (wBlkAt_R0 V c) t ht p q _ _ rfl rfl

theorem cover_R0 (i : S4096x4096.Idx) :
    ∃ t : Fin cfg0.N, (cfg0.win 2).flush t = true ∧ i ∈ ((cfg0.win 2).blk t).view.set := by
  have ha : (i 0).val < 4096 := (i 0).isLt
  have hb : (i 1).val < 4096 := (i 1).isLt
  have hlt : 16 * ((i 0).val / 1024) + 4 * ((i 1).val / 1024) + 3 < cfg0.N := by
    rw [show cfg0.N = 64 from N_0]; omega
  refine ⟨⟨_, hlt⟩, (flush0_2 _).mpr (by show (16 * ((i 0).val / 1024) + 4 * ((i 1).val / 1024) + 3) % 4 = 3; omega), ?_⟩
  obtain ⟨-, -, -, -, ec, ed⟩ := idx_R0 ⟨_, hlt⟩
  show i ∈ ((View.whole (Pipeline.arrRef spec0 2)).slice ((cfg0.win 2).rect ⟨_, hlt⟩)).set
  rw [View.set_slice_whole, Rect.mem_set_unit]
  intro a
  match a with
  | ⟨0, _⟩ =>
    show win0_2.index ⟨_, hlt⟩ (0 : Fin 2) * 1024 ≤ (i 0).val ∧ (i 0).val < win0_2.index ⟨_, hlt⟩ (0 : Fin 2) * 1024 + 1024
    rw [ec]; show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_2.index ⟨_, hlt⟩ (1 : Fin 2) * 1024 ≤ (i 1).val ∧ (i 1).val < win0_2.index ⟨_, hlt⟩ (1 : Fin 2) * 1024 + 1024
    rw [ed]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

theorem out_R0 (c : Dev nD) :
    (dat_R0 (F := Ideal) V c).arrAt 2 cfg0.N
      = Cert.Spec.rowDot (V c (Pipeline.arrRef spec0 0)) (V c (Pipeline.arrRef spec0 1)) :=
  (dat_R0 (F := Ideal) V c).arrAt_eq_of_cover 2 _ (fun t hf => flushed_R0 V c t hf) (fun i => cover_R0 i)

end Blocks_R0

end Cert.KernelIdeal.Hand
end
-- ==== Proof.PipeR1.lean ====
import proofs.«140595_j18622978196102_1_alg».proof.Proof.StepRow

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R1

variable (V : (c : Dev nD) → (b : Ref sig .tc) → Buf (Elt F) ((c : Thread nD τ).loc b))

-- The block of operand w at point t, cut out of its array as the region finds it.
def blk_R1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xBlk_R1 (c : Dev nD) (t : Fin cfg1.N) : Vec F S1024x1024 .f32 := blk_R1 V c 0 t
abbrev wBlk_R1 (c : Dev nD) (t : Fin cfg1.N) : Vec F S1024x1024 .f32 := blk_R1 V c 1 t

abbrev sumAfter_R1 (c : Dev nD) : (n : ℕ) → n < cfg1.N → Vec F S1024x1024 .f32 :=
  runSum (startBlock_row (F := F)) (addBlock_row (F := F)) (xBlk_R1 V c) (wBlk_R1 V c)

abbrev acc_R1 : Memref sig .tc .vmem S1024x1024 .f32 := Memref.whole cc1_scratch0

abbrev aside_R1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

-- What every point leaves: the input blocks as found, the output block at the finished sum where it is written, the running sum between points.
def dat_R1 (c : Dev nD) : Dat τ (Elt F) Unit ℕ (UR sig nD τ) ℕ cfg1 c where
  A w := V c (Pipeline.arrRef spec1 w)
  after w t := match w with
    | ⟨0, _⟩ => blk_R1 V c 0 t
    | ⟨1, _⟩ => blk_R1 V c 1 t
    | ⟨2, _⟩ => k0_pay3 (sumAfter_R1 V c t.val t.isLt)
  Φ t := between c acc_R1 (aside_R1 c) (sumAfter_R1 V c) t.val (Nat.le_of_lt_succ t.isLt)
  q _ := fullShare
  owed _ := 0

theorem dat_R1_A (c : Dev nD) (w : Fin cfg1.W) : (dat_R1 V c).A w = V c (Pipeline.arrRef spec1 w) := by dsimp only [dat_R1]
theorem dat_R1_after0 (c : Dev nD) (t : Fin cfg1.N) : (dat_R1 V c).after 0 t = blk_R1 V c 0 t := by dsimp only [dat_R1]
theorem dat_R1_after1 (c : Dev nD) (t : Fin cfg1.N) : (dat_R1 V c).after 1 t = blk_R1 V c 1 t := by dsimp only [dat_R1]
theorem dat_R1_after2 (c : Dev nD) (t : Fin cfg1.N) : (dat_R1 V c).after 2 t = k0_pay3 (sumAfter_R1 V c t.val t.isLt) := by dsimp only [dat_R1]

theorem dat_R1_before0 (c : Dev nD) (t : Fin cfg1.N) (d) : (dat_R1 V c).before 0 t d = blk_R1 V c 0 t :=
  ((dat_R1 V c).before_in_eq_fetched 0 rfl (fun _ => rfl) (fun _ _ _ => rfl)
    (fun t => by rw [dat_R1_after0]; unfold Dat.blockOf blk_R1; rw [dat_R1_A]; try rfl) t d).trans
    (by unfold Dat.fetched Dat.blockOf blk_R1; rw [dat_R1_A]; try rfl)
theorem dat_R1_before1 (c : Dev nD) (t : Fin cfg1.N) (d) : (dat_R1 V c).before 1 t d = blk_R1 V c 1 t :=
  ((dat_R1 V c).before_in_eq_fetched 1 rfl (fun _ => rfl) (fun _ _ _ => rfl)
    (fun t => by rw [dat_R1_after1]; unfold Dat.blockOf blk_R1; rw [dat_R1_A]; try rfl) t d).trans
    (by unfold Dat.fetched Dat.blockOf blk_R1; rw [dat_R1_A]; try rfl)

theorem live_R1_0 : ∀ t : Fin cfg1.N, cfg1.idle 0 (grid1.coords t) = false := by decide +kernel
theorem live_R1_1 : ∀ t : Fin cfg1.N, cfg1.idle 1 (grid1.coords t) = false := by decide +kernel
theorem idle_R1_2 : ∀ t : Fin cfg1.N, ¬t.val % 4 = 3 → cfg1.idle 2 (grid1.coords t) = true := by decide +kernel
theorem noFlush_R1_2 : ∀ t : Fin cfg1.N, ¬t.val % 4 = 3 → (cfg1.win 2).flush t = false := by decide +kernel
theorem live_R1_2 : ∀ t : Fin cfg1.N, t.val % 4 = 3 → cfg1.idle 2 (grid1.coords t) = false := by decide +kernel

end Data_R1

section Obligation_R1

variable (V : (c : Dev nD) → (b : Ref sig .tc) → Buf (Elt F) ((c : Thread nD τ).loc b))

def handed_R1 (c : Dev nD) (t : Fin cfg1.N) : sProp 𝕄 :=
  iprop((dat_R1 V c).Φ t.castSucc ∗ (dat_R1 V c).owesAt () t.castSucc
    ∗ (∃ d, owns (c : Thread nD τ) (st1_0 t) fullShare ((dat_R1 V c).before 0 t d))
    ∗ (∃ d, owns (c : Thread nD τ) (st1_1 t) fullShare ((dat_R1 V c).before 1 t d))
    ∗ (∃ d, owns (c : Thread nD τ) (st1_2 t) fullShare ((dat_R1 V c).before 2 t d)))

def returned_R1 (c : Dev nD) (t : Fin cfg1.N) : sProp 𝕄 :=
  iprop((dat_R1 V c).Φ t.succ ∗ (dat_R1 V c).owesAt () t.succ
    ∗ (dat_R1 V c).leavesExact 0 t ∗ (dat_R1 V c).leavesExact 1 t ∗ (dat_R1 V c).leavesExact 2 t)

theorem leaves_R1_0 (c : Dev nD) (t : Fin cfg1.N) :
    (dat_R1 V c).leavesExact 0 t = owns (c : Thread nD τ) (st1_0 t) fullShare (blk_R1 V c 0 t) := by
  unfold Dat.leavesExact; rw [live_R1_0 t, dat_R1_after0]
theorem leaves_R1_1 (c : Dev nD) (t : Fin cfg1.N) :
    (dat_R1 V c).leavesExact 1 t = owns (c : Thread nD τ) (st1_1 t) fullShare (blk_R1 V c 1 t) := by
  unfold Dat.leavesExact; rw [live_R1_1 t, dat_R1_after1]

-- The output block after the point: the finished sum where the point ends a run, else as found.
theorem leaves_R1_2 (c : Dev nD) (t : Fin cfg1.N) (d) :
    owns (c : Thread nD τ) (st1_2 t) fullShare (if t.val % 4 = 3 then k0_pay3 ((stepSum (startBlock_row (F := F)) (addBlock_row (F := F)) t.val (xBlk_R1 V c t) (wBlk_R1 V c t) (sumAfter_R1 V c (t.val - 1) (Nat.lt_of_le_of_lt (Nat.sub_le _ _) t.isLt)))) else (dat_R1 V c).before 2 t d)
      ⊢ (dat_R1 V c).leavesExact 2 t := by
  rw [← runSum_step]
  by_cases h3 : t.val % 4 = 3
  · rw [if_pos h3, show (dat_R1 V c).leavesExact 2 t = owns (c : Thread nD τ) (st1_2 t) fullShare ((dat_R1 V c).after 2 t) from by
      unfold Dat.leavesExact; rw [live_R1_2 t h3], dat_R1_after2]
  · rw [if_neg h3, Dat.leavesExact_idle (dat_R1 V c) 2 t (idle_R1_2 t h3) (noFlush_R1_2 t h3)]
    iintro H; iexists _; iexact H

set_option maxHeartbeats 2000000 in
theorem point_R1 (c : Dev nD) (t : Fin cfg1.N) :
    handed_R1 V c t ⊢ wp frame (wpE (defs₀ (F := F)) Variants.none c none) Set.univ (bodyAt1 t) (fun _ => returned_R1 V c t) := by
  unfold handed_R1 returned_R1 bodyAt1
  simp only [dat_R1_before0, dat_R1_before1, leaves_R1_0, leaves_R1_1]
  exact point_row (body := cc1_matmul_abt_kernel) rfl c (grid1.coords t) t.val (firstK_row_iff t) (lastK_row_iff t) _ _ _ _ _ _ _ _
    (xBlk_R1 V c t) (wBlk_R1 V c t) (sumAfter_R1 V c (t.val - 1) (Nat.lt_of_le_of_lt (Nat.sub_le _ _) t.isLt))
    (fun d => (dat_R1 V c).before 2 t d) _ _ _ _ (aside_R1 c)
    (between_found c acc_R1 (aside_R1 c) (sumAfter_R1 V c) t)
    (between_left c acc_R1 (aside_R1 c) (sumAfter_R1 V c) t _ (runSum_step _ _ _ _ t))
    (fun d => leaves_R1_2 V c t d)

theorem body_R1 (c : Dev nD) : BodyObligation (dat_R1 (F := F) V c) (defs₀ (F := F)) Variants.none () Set.univ := fun t => by
  rw [bigSep_W1, bigSep_W1]
  exact point_R1 V c t

end Obligation_R1

end Cert.KernelIdeal.Hand
end
-- ==== Proof.ValueR1.lean ====
import proofs.«140595_j18622978196102_1_alg».proof.Proof.PipeR1
import proofs.«140595_j18622978196102_1_alg».proof.Proof.ValueRow

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem idx_R1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4)

section Blocks_R1

variable (V : (c : Dev nD) → (b : Ref sig .tc) → Buf (Elt Ideal) ((c : Thread nD τ).loc b))

theorem xBlkAt_R1 (c : Dev nD) (t : Fin cfg1.N) (p kk : Fin 1024) (i : S4096x4096.Idx)
    (hr : (i 0).val = t.val / 16 * 1024 + p.val) (hk : (i 1).val = t.val % 4 * 1024 + kk.val) :
    xBlk_R1 V c t (ix2 p kk) = V c (Pipeline.arrRef spec1 0) i := by
  obtain ⟨ea, eb, -⟩ := idx_R1 t
  show V c (Pipeline.arrRef spec1 0) (((cfg1.win 0).blk t).view.emb (ix2 p kk)) = V c (Pipeline.arrRef spec1 0) i
  refine congrArg _ (funext fun a => Fin.ext ?_)
  match a with
  | ⟨0, _⟩ => show win1_0.index t (0 : Fin 2) * 1024 + 1 * p.val = (i 0).val; omega
  | ⟨1, _⟩ => show win1_0.index t (1 : Fin 2) * 1024 + 1 * kk.val = (i 1).val; omega

theorem wBlkAt_R1 (c : Dev nD) (t : Fin cfg1.N) (q kk : Fin 1024) (i : S4096x4096.Idx)
    (hr : (i 0).val = t.val / 4 % 4 * 1024 + q.val) (hk : (i 1).val = t.val % 4 * 1024 + kk.val) :
    wBlk_R1 V c t (ix2 q kk) = V c (Pipeline.arrRef spec1 1) i := by
  obtain ⟨-, -, ea, eb, -⟩ := idx_R1 t
  show V c (Pipeline.arrRef spec1 1) (((cfg1.win 1).blk t).view.emb (ix2 q kk)) = V c (Pipeline.arrRef spec1 1) i
  refine congrArg _ (funext fun a => Fin.ext ?_)
  match a with
  | ⟨0, _⟩ => show win1_1.index t (0 : Fin 2) * 1024 + 1 * q.val = (i 0).val; omega
  | ⟨1, _⟩ => show win1_1.index t (1 : Fin 2) * 1024 + 1 * kk.val = (i 1).val; omega

theorem flushed_R1 (c : Dev nD) (t : Fin cfg1.N) (hf : (cfg1.win 2).flush t = true) :
    (dat_R1 (F := Ideal) V c).flushed 2 t
      = ((cfg1.win 2).blk t).view.read (Elt Ideal)
          (Cert.Spec.rowDot (V c (Pipeline.arrRef spec1 0)) (V c (Pipeline.arrRef spec1 1))) := by
  have ht : t.val % 4 = 3 := (flush1_2 t).mp hf
  have hN : t.val < 64 := lt_of_lt_of_eq t.isLt (show cfg1.N = 64 from N_1)
  obtain ⟨-, -, -, -, ec, ed⟩ := idx_R1 t
  show (cfg1.win 2).cut (grid1.coords t) ((dat_R1 (F := Ideal) V c).after 2 t) = _
  rw [dat_R1_after2, toOut_row]
  refine funext fun (j : S1024x1024.Idx) => ?_
  obtain ⟨p, q, rfl⟩ : ∃ (p q : Fin 1024), j = ix2 p q := ⟨j 0, j 1, eq_ix2 j⟩
  have hp := p.isLt
  have hq := q.isLt
  have e : ((cfg1.win 2).blk t).view.emb (ix2 p q)
      = (ix2 (⟨t.val / 16 * 1024 + p.val, by omega⟩ : Fin 4096) (⟨t.val / 4 % 4 * 1024 + q.val, by omega⟩ : Fin 4096) : S4096x4096.Idx) :=
    funext fun a => Fin.ext (by
      match a with
      | ⟨0, _⟩ => show win1_2.index t (0 : Fin 2) * 1024 + 1 * p.val = t.val / 16 * 1024 + p.val; omega
      | ⟨1, _⟩ => show win1_2.index t (1 : Fin 2) * 1024 + 1 * q.val = t.val / 4 % 4 * 1024 + q.val; omega)
  show sumAfter_R1 V c t.val t.isLt (ix2 p q)
    = Cert.Spec.rowDot (V c (Pipeline.arrRef spec1 0)) (V c (Pipeline.arrRef spec1 1)) (((cfg1.win 2).blk t).view.emb (ix2 p q))
  rw [e, Cert.Spec.rowDot_ix2]
  exact lastSum_row _ _ _ _ (xBlkAt_R1 V c) (wBlkAt_R1 V c) t ht p q _ _ rfl rfl

theorem cover_R1 (i : S4096x4096.Idx) :
    ∃ t : Fin cfg1.N, (cfg1.win 2).flush t = true ∧ i ∈ ((cfg1.win 2).blk t).view.set := by
  have ha : (i 0).val < 4096 := (i 0).isLt
  have hb : (i 1).val < 4096 := (i 1).isLt
  have hlt : 16 * ((i 0).val / 1024) + 4 * ((i 1).val / 1024) + 3 < cfg1.N := by
    rw [show cfg1.N = 64 from N_1]; omega
  refine ⟨⟨_, hlt⟩, (flush1_2 _).mpr (by show (16 * ((i 0).val / 1024) + 4 * ((i 1).val / 1024) + 3) % 4 = 3; omega), ?_⟩
  obtain ⟨-, -, -, -, ec, ed⟩ := idx_R1 ⟨_, hlt⟩
  show i ∈ ((View.whole (Pipeline.arrRef spec1 2)).slice ((cfg1.win 2).rect ⟨_, hlt⟩)).set
  rw [View.set_slice_whole, Rect.mem_set_unit]
  intro a
  match a with
  | ⟨0, _⟩ =>
    show win1_2.index ⟨_, hlt⟩ (0 : Fin 2) * 1024 ≤ (i 0).val ∧ (i 0).val < win1_2.index ⟨_, hlt⟩ (0 : Fin 2) * 1024 + 1024
    rw [ec]; show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_2.index ⟨_, hlt⟩ (1 : Fin 2) * 1024 ≤ (i 1).val ∧ (i 1).val < win1_2.index ⟨_, hlt⟩ (1 : Fin 2) * 1024 + 1024
    rw [ed]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

theorem out_R1 (c : Dev nD) :
    (dat_R1 (F := Ideal) V c).arrAt 2 cfg1.N
      = Cert.Spec.rowDot (V c (Pipeline.arrRef spec1 0)) (V c (Pipeline.arrRef spec1 1)) :=
  (dat_R1 (F := Ideal) V c).arrAt_eq_of_cover 2 _ (fun t hf => flushed_R1 V c t hf) (fun i => cover_R1 i)

end Blocks_R1

end Cert.KernelIdeal.Hand
end
-- ==== Proof.StepCol.lean ====
import proofs.«140595_j18622978196102_1_alg».proof.Proof.StepRow

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec (stepSum runSum)

variable {F : FTy → Type} [FloatOps F]

local notation "𝕄" => MT nD τ sig Unit (Elt F) ℕ (UR sig nD τ) ℕ

-- The grid is (row block, column block, K block); a point is the first of its run of K blocks, or the last.
abbrev firstK_col (i : grid2.Coords) : Prop := (Scalar.cmpi .ne (Scalar.extui (Scalar.cmpi .eq (BitVec.ofNat 32 (i 2).val) 0#32)) 0#32) = 1#1
abbrev lastK_col (i : grid2.Coords) : Prop := k2_cond2 i = 1#1

theorem firstK_col_iff : ∀ t : Fin cfg2.N, firstK_col (grid2.coords t) ↔ t.val % 4 = 0 :=
  (by decide +kernel : ∀ t : Fin grid2.N, firstK_col (grid2.coords t) ↔ t.val % 4 = 0)
theorem lastK_col_iff : ∀ t : Fin cfg2.N, lastK_col (grid2.coords t) ↔ t.val % 4 = 3 :=
  (by decide +kernel : ∀ t : Fin grid2.N, lastK_col (grid2.coords t) ↔ t.val % 4 = 3)

-- The running sum after a point: the old sum plus the point's block product; at the first point of a run the old sum is the cleared one.
abbrev addBlock_col (x : Vec F S1024x1024 .f32) (w : Vec F S1024x1024 .bf16) (s : Vec F S1024x1024 .f32) : Vec F S1024x1024 .f32 := k2_pay2 x w s
abbrev startBlock_col (x : Vec F S1024x1024 .f32) (w : Vec F S1024x1024 .bf16) : Vec F S1024x1024 .f32 := k2_pay2 x w (k2_pay1 (F := F))

-- The three step lemmas hold of any body that is this kernel: the regions that run it differ in nothing else.
set_option maxHeartbeats 4000000 in
theorem step_inner_col {body} (hb : body = cc2_matmul_atb_kernel (F := F)) (c : Dev nD) (i : grid2.Coords) (hc0 : ¬firstK_col i) (hc1 : ¬lastK_col i)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (addBlock_col x w s)) -∗ K ⟨⟩))
      ⊢ wp frame (wpE (defs₀ (F := F)) Variants.none c none) E (body i a3 h3 a4 h4 a5 h5 a6 h6) K := by
  subst hb
  simp only [cc2_matmul_atb_kernel_eq_skeleton]; unfold cc2_matmul_atb_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  rw [View.read_writes_eq_canon _ _ _ (coverOne _), View.canon_unit_zero zeroOff]
  simp only [View.readAt_eq_ld, h3.read_unread, h4.read_unread, h6.read_unread, View.ld_unit_zero (S := S1024x1024) zeroOff]

set_option maxHeartbeats 4000000 in
theorem step_first_col {body} (hb : body = cc2_matmul_atb_kernel (F := F)) (c : Dev nD) (i : grid2.Coords) (hc0 : firstK_col i) (hc1 : ¬lastK_col i)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare o
            ∗ owns (c : Thread nD τ) a6 fullShare (startBlock_col x w)) -∗ K ⟨⟩))
      ⊢ wp frame (wpE (defs₀ (F := F)) Variants.none c none) E (body i a3 h3 a4 h4 a5 h5 a6 h6) K := by
  subst hb
  simp only [cc2_matmul_atb_kernel_eq_skeleton]; unfold cc2_matmul_atb_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr; · ipureintro; exact h5.read_unread _
    iexact HO
  iexists _; isplitr
  swap; · iexact HS
  ipureintro
  sl_unfold_words
  rw [View.read_writes_eq_canon _ _ _ (coverHead _ _), View.canon_cons_unit_zero zeroOff]
  simp only [View.readAt_eq_ld, h3.read_unread, h4.read_unread, View.ld_unit_zero (S := S1024x1024) zeroOff,
    View.readCov_unit_zero (S := S1024x1024) _ zeroOff]

set_option maxHeartbeats 4000000 in
theorem step_last_col {body} (hb : body = cc2_matmul_atb_kernel (F := F)) (c : Dev nD) (i : grid2.Coords) (hc0 : ¬firstK_col i) (hc1 : lastK_col i)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ owns (c : Thread nD τ) a6 fullShare s
        ∗ (iprop(owns (c : Thread nD τ) a3 fullShare x ∗ owns (c : Thread nD τ) a4 fullShare w ∗ owns (c : Thread nD τ) a5 fullShare (addBlock_col x w s)
            ∗ owns (c : Thread nD τ) a6 fullShare (addBlock_col x w s)) -∗ K ⟨⟩))
      ⊢ wp frame (wpE (defs₀ (F := F)) Variants.none c none) E (body i a3 h3 a4 h4 a5 h5 a6 h6) K := by
  subst hb
  simp only [cc2_matmul_atb_kernel_eq_skeleton]; unfold cc2_matmul_atb_kernel_skel
  unfold owns
  iintro ⟨⟨%f0, %hf0, H0⟩, ⟨%f1, %hf1, H1⟩, ⟨%fo, %hfo, HO⟩, ⟨%fs, %hfs, HS⟩, Hk⟩
  obtain rfl := h3.eq_unread hf0; obtain rfl := h4.eq_unread hf1; obtain rfl := h5.eq_unread hfo; obtain rfl := h6.eq_unread hfs
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [HO]
  · iexists _; isplitr
    swap; · iexact HO
    ipureintro
    sl_unfold_words
    rw [View.read_writes_eq_canon _ _ _ (coverOne _), View.canon_unit_zero zeroOff]
    simp only [View.readAt_eq_ld, h3.read_unread, h4.read_unread, h6.read_unread, View.ld_unit_zero (S := S1024x1024) zeroOff,
      View.readCov_unit_zero (S := S1024x1024) _ zeroOff]
  iexists _; isplitr
  swap; · iexact HS
  ipureintro
  sl_unfold_words
  rw [View.read_writes_eq_canon _ _ _ (coverOne _), View.canon_unit_zero zeroOff]
  simp only [View.readAt_eq_ld, h3.read_unread, h4.read_unread, h6.read_unread, View.ld_unit_zero (S := S1024x1024) zeroOff]

-- The three steps as one: point number n starts a run when n % 4 = 0 and ends one, writing the output block, when n % 4 = 3.
theorem step_col {body} (hb : body = cc2_matmul_atb_kernel (F := F)) (c : Dev nD) (i : grid2.Coords) (n : ℕ)
    (hf : firstK_col i ↔ n % 4 = 0) (hl : lastK_col i ↔ n % 4 = 3)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) (o : Vec F S1024x1024 .f32) (E : Set ℕ) (K : PUnit → sProp 𝕄) :
    iprop(owns (c : Thread nD τ) a3 fullShare x ∗ owns (c : Thread nD τ) a4 fullShare w ∗ owns (c : Thread nD τ) a5 fullShare o
        ∗ found c a6 n s
        ∗ (iprop(owns (c : Thread nD τ) a3 fullShare x ∗ owns (c : Thread nD τ) a4 fullShare w
            ∗ owns (c : Thread nD τ) a5 fullShare (if n % 4 = 3 then (stepSum (startBlock_col (F := F)) (addBlock_col (F := F)) n x w s) else o)
            ∗ owns (c : Thread nD τ) a6 fullShare (stepSum (startBlock_col (F := F)) (addBlock_col (F := F)) n x w s)) -∗ K ⟨⟩))
      ⊢ wp frame (wpE (defs₀ (F := F)) Variants.none c none) E (body i a3 h3 a4 h4 a5 h5 a6 h6) K := by
  unfold found Cert.Spec.stepSum
  by_cases h0 : n % 4 = 0
  · have hn3 : ¬n % 4 = 3 := by omega
    simp only [if_pos h0, if_neg hn3]
    iintro ⟨H0, H1, HO, ⟨%d, HS⟩, Hk⟩
    iapply (step_first_col hb c i (hf.mpr h0) (fun h => hn3 (hl.mp h)) a3 h3 a4 h4 a5 h5 a6 h6 x w d o E K)
    isplitl [H0]; · iexact H0
    isplitl [H1]; · iexact H1
    isplitl [HO]; · iexact HO
    isplitl [HS]; · iexact HS
    iexact Hk
  · simp only [if_neg h0]
    by_cases hn3 : n % 4 = 3
    · simp only [if_pos hn3]
      exact step_last_col hb c i (fun h => h0 (hf.mp h)) (hl.mpr hn3) a3 h3 a4 h4 a5 h5 a6 h6 x w s o E K
    · simp only [if_neg hn3]
      exact step_inner_col hb c i (fun h => h0 (hf.mp h)) (fun h => hn3 (hl.mp h)) a3 h3 a4 h4 a5 h5 a6 h6 x w s o E K

-- One grid point: from the state between points and the three blocks it is handed, to the next state and the blocks as it leaves them.
theorem point_col {body} (hb : body = cc2_matmul_atb_kernel (F := F)) (c : Dev nD) (i : grid2.Coords) (n : ℕ)
    (hf : firstK_col i ↔ n % 4 = 0) (hl : lastK_col i ↔ n % 4 = 3)
    (a3 : Memref sig .tc .vmem S1024x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .f32) (w : Vec F S1024x1024 .bf16) (s : Vec F S1024x1024 .f32) {D0 D1 D2 : Type} (bef : D2 → Vec F S1024x1024 .f32) (Φin Φout O L2 A : sProp 𝕄)
    (hin : Φin ⊢ iprop(found c a6 n s ∗ A))
    (hout : iprop(owns (c : Thread nD τ) a6 fullShare (stepSum (startBlock_col (F := F)) (addBlock_col (F := F)) n x w s) ∗ A) ⊢ Φout)
    (hL : ∀ d, owns (c : Thread nD τ) a5 fullShare (if n % 4 = 3 then (stepSum (startBlock_col (F := F)) (addBlock_col (F := F)) n x w s) else bef d) ⊢ L2) :
    iprop(Φin ∗ O ∗ (∃ _d : D0, owns (c : Thread nD τ) a3 fullShare x) ∗ (∃ _d : D1, owns (c : Thread nD τ) a4 fullShare w)
        ∗ (∃ d : D2, owns (c : Thread nD τ) a5 fullShare (bef d)))
      ⊢ wp frame (wpE (defs₀ (F := F)) Variants.none c none) Set.univ (body i a3 h3 a4 h4 a5 h5 a6 h6)
          (fun _ => iprop(Φout ∗ O ∗ owns (c : Thread nD τ) a3 fullShare x ∗ owns (c : Thread nD τ) a4 fullShare w ∗ L2)) := by
  iintro ⟨HB, Ho, ⟨%d0, H0⟩, ⟨%d1, H1⟩, ⟨%d2, H2⟩⟩
  ihave HB' := (hin) $$ HB
  icases HB' with ⟨HS, Hr⟩
  iapply (step_col hb c i n hf hl a3 h3 a4 h4 a5 h5 a6 h6 x w s (bef d2) Set.univ _)
  isplitl [H0]; · iexact H0
  isplitl [H1]; · iexact H1
  isplitl [H2]; · iexact H2
  isplitl [HS]; · iexact HS
  iintro ⟨H0, H1, H2, HS⟩
  isplitl [HS Hr]
  · iapply hout
    isplitl [HS]; · iexact HS
    iexact Hr
  isplitl [Ho]; · iexact Ho
  isplitl [H0]; · iexact H0
  isplitl [H1]; · iexact H1
  iapply (hL d2); iexact H2

end Cert.KernelIdeal.Hand
end
-- ==== Proof.PipeR2.lean ====
import proofs.«140595_j18622978196102_1_alg».proof.Proof.StepCol

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R2

variable (V : (c : Dev nD) → (b : Ref sig .tc) → Buf (Elt F) ((c : Thread nD τ).loc b))

-- The block of operand w at point t, cut out of its array as the region finds it.
def blk_R2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xBlk_R2 (c : Dev nD) (t : Fin cfg2.N) : Vec F S1024x1024 .f32 := blk_R2 V c 0 t
abbrev wBlk_R2 (c : Dev nD) (t : Fin cfg2.N) : Vec F S1024x1024 .bf16 := blk_R2 V c 1 t

abbrev sumAfter_R2 (c : Dev nD) : (n : ℕ) → n < cfg2.N → Vec F S1024x1024 .f32 :=
  runSum (startBlock_col (F := F)) (addBlock_col (F := F)) (xBlk_R2 V c) (wBlk_R2 V c)

abbrev acc_R2 : Memref sig .tc .vmem S1024x1024 .f32 := Memref.whole cc2_scratch0

abbrev aside_R2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

-- What every point leaves: the input blocks as found, the output block at the finished sum where it is written, the running sum between points.
def dat_R2 (c : Dev nD) : Dat τ (Elt F) Unit ℕ (UR sig nD τ) ℕ cfg2 c where
  A w := V c (Pipeline.arrRef spec2 w)
  after w t := match w with
    | ⟨0, _⟩ => blk_R2 V c 0 t
    | ⟨1, _⟩ => blk_R2 V c 1 t
    | ⟨2, _⟩ => sumAfter_R2 V c t.val t.isLt
  Φ t := between c acc_R2 (aside_R2 c) (sumAfter_R2 V c) t.val (Nat.le_of_lt_succ t.isLt)
  q _ := fullShare
  owed _ := 0

theorem dat_R2_A (c : Dev nD) (w : Fin cfg2.W) : (dat_R2 V c).A w = V c (Pipeline.arrRef spec2 w) := by dsimp only [dat_R2]
theorem dat_R2_after0 (c : Dev nD) (t : Fin cfg2.N) : (dat_R2 V c).after 0 t = blk_R2 V c 0 t := by dsimp only [dat_R2]
theorem dat_R2_after1 (c : Dev nD) (t : Fin cfg2.N) : (dat_R2 V c).after 1 t = blk_R2 V c 1 t := by dsimp only [dat_R2]
theorem dat_R2_after2 (c : Dev nD) (t : Fin cfg2.N) : (dat_R2 V c).after 2 t = sumAfter_R2 V c t.val t.isLt := by dsimp only [dat_R2]

theorem dat_R2_before0 (c : Dev nD) (t : Fin cfg2.N) (d) : (dat_R2 V c).before 0 t d = blk_R2 V c 0 t :=
  ((dat_R2 V c).before_in_eq_fetched 0 rfl (fun _ => rfl) (fun _ _ _ => rfl)
    (fun t => by rw [dat_R2_after0]; unfold Dat.blockOf blk_R2; rw [dat_R2_A]; try rfl) t d).trans
    (by unfold Dat.fetched Dat.blockOf blk_R2; rw [dat_R2_A]; try rfl)
theorem dat_R2_before1 (c : Dev nD) (t : Fin cfg2.N) (d) : (dat_R2 V c).before 1 t d = blk_R2 V c 1 t :=
  ((dat_R2 V c).before_in_eq_fetched 1 rfl (fun _ => rfl) (fun _ _ _ => rfl)
    (fun t => by rw [dat_R2_after1]; unfold Dat.blockOf blk_R2; rw [dat_R2_A]; try rfl) t d).trans
    (by unfold Dat.fetched Dat.blockOf blk_R2; rw [dat_R2_A]; try rfl)

theorem live_R2_0 : ∀ t : Fin cfg2.N, cfg2.idle 0 (grid2.coords t) = false := by decide +kernel
theorem live_R2_1 : ∀ t : Fin cfg2.N, cfg2.idle 1 (grid2.coords t) = false := by decide +kernel
theorem idle_R2_2 : ∀ t : Fin cfg2.N, ¬t.val % 4 = 3 → cfg2.idle 2 (grid2.coords t) = true := by decide +kernel
theorem noFlush_R2_2 : ∀ t : Fin cfg2.N, ¬t.val % 4 = 3 → (cfg2.win 2).flush t = false := by decide +kernel
theorem live_R2_2 : ∀ t : Fin cfg2.N, t.val % 4 = 3 → cfg2.idle 2 (grid2.coords t) = false := by decide +kernel

end Data_R2

section Obligation_R2

variable (V : (c : Dev nD) → (b : Ref sig .tc) → Buf (Elt F) ((c : Thread nD τ).loc b))

def handed_R2 (c : Dev nD) (t : Fin cfg2.N) : sProp 𝕄 :=
  iprop((dat_R2 V c).Φ t.castSucc ∗ (dat_R2 V c).owesAt () t.castSucc
    ∗ (∃ d, owns (c : Thread nD τ) (st2_0 t) fullShare ((dat_R2 V c).before 0 t d))
    ∗ (∃ d, owns (c : Thread nD τ) (st2_1 t) fullShare ((dat_R2 V c).before 1 t d))
    ∗ (∃ d, owns (c : Thread nD τ) (st2_2 t) fullShare ((dat_R2 V c).before 2 t d)))

def returned_R2 (c : Dev nD) (t : Fin cfg2.N) : sProp 𝕄 :=
  iprop((dat_R2 V c).Φ t.succ ∗ (dat_R2 V c).owesAt () t.succ
    ∗ (dat_R2 V c).leavesExact 0 t ∗ (dat_R2 V c).leavesExact 1 t ∗ (dat_R2 V c).leavesExact 2 t)

theorem leaves_R2_0 (c : Dev nD) (t : Fin cfg2.N) :
    (dat_R2 V c).leavesExact 0 t = owns (c : Thread nD τ) (st2_0 t) fullShare (blk_R2 V c 0 t) := by
  unfold Dat.leavesExact; rw [live_R2_0 t, dat_R2_after0]
theorem leaves_R2_1 (c : Dev nD) (t : Fin cfg2.N) :
    (dat_R2 V c).leavesExact 1 t = owns (c : Thread nD τ) (st2_1 t) fullShare (blk_R2 V c 1 t) := by
  unfold Dat.leavesExact; rw [live_R2_1 t, dat_R2_after1]

-- The output block after the point: the finished sum where the point ends a run, else as found.
theorem leaves_R2_2 (c : Dev nD) (t : Fin cfg2.N) (d) :
    owns (c : Thread nD τ) (st2_2 t) fullShare (if t.val % 4 = 3 then (stepSum (startBlock_col (F := F)) (addBlock_col (F := F)) t.val (xBlk_R2 V c t) (wBlk_R2 V c t) (sumAfter_R2 V c (t.val - 1) (Nat.lt_of_le_of_lt (Nat.sub_le _ _) t.isLt))) else (dat_R2 V c).before 2 t d)
      ⊢ (dat_R2 V c).leavesExact 2 t := by
  rw [← runSum_step]
  by_cases h3 : t.val % 4 = 3
  · rw [if_pos h3, show (dat_R2 V c).leavesExact 2 t = owns (c : Thread nD τ) (st2_2 t) fullShare ((dat_R2 V c).after 2 t) from by
      unfold Dat.leavesExact; rw [live_R2_2 t h3], dat_R2_after2]
  · rw [if_neg h3, Dat.leavesExact_idle (dat_R2 V c) 2 t (idle_R2_2 t h3) (noFlush_R2_2 t h3)]
    iintro H; iexists _; iexact H

set_option maxHeartbeats 2000000 in
theorem point_R2 (c : Dev nD) (t : Fin cfg2.N) :
    handed_R2 V c t ⊢ wp frame (wpE (defs₀ (F := F)) Variants.none c none) Set.univ (bodyAt2 t) (fun _ => returned_R2 V c t) := by
  unfold handed_R2 returned_R2 bodyAt2
  simp only [dat_R2_before0, dat_R2_before1, leaves_R2_0, leaves_R2_1]
  exact point_col (body := cc2_matmul_atb_kernel) rfl c (grid2.coords t) t.val (firstK_col_iff t) (lastK_col_iff t) _ _ _ _ _ _ _ _
    (xBlk_R2 V c t) (wBlk_R2 V c t) (sumAfter_R2 V c (t.val - 1) (Nat.lt_of_le_of_lt (Nat.sub_le _ _) t.isLt))
    (fun d => (dat_R2 V c).before 2 t d) _ _ _ _ (aside_R2 c)
    (between_found c acc_R2 (aside_R2 c) (sumAfter_R2 V c) t)
    (between_left c acc_R2 (aside_R2 c) (sumAfter_R2 V c) t _ (runSum_step _ _ _ _ t))
    (fun d => leaves_R2_2 V c t d)

theorem body_R2 (c : Dev nD) : BodyObligation (dat_R2 (F := F) V c) (defs₀ (F := F)) Variants.none () Set.univ := fun t => by
  rw [bigSep_W2, bigSep_W2]
  exact point_R2 V c t

end Obligation_R2

end Cert.KernelIdeal.Hand
end
-- ==== Proof.ValueCol.lean ====
import proofs.«140595_j18622978196102_1_alg».proof.Proof.StepCol
import proofs.«140595_j18622978196102_1_alg».proof.Proof.Spec
import proofs.«140595_j18622978196102_1_alg».proof.Proof.BlockSum
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

-- The same for the product down the two blocks' columns.
theorem lhsContr_col (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem lhsCol_col (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem rhsContr_col (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem rhsCol_col (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

theorem blockProd_col (x w : FVec Ideal S1024x1024 .bf16) (p q : Fin 1024) :
    matmul (F := Ideal) dot_S1024x1024_S1024x1024_S1024x1024_0_0_1_1_n_n none x w (constant (F := Ideal) S1024x1024 .f32 0x00000000#32) (ix2 p q)
      = ∑ kk : Fin 1024, x (ix2 kk p) * w (ix2 kk q) := by
  simp only [matmul]
  rw [Ideal.matmul_constant_zero_apply, ← Equiv.sum_comp (ValueIdx.contrEquiv1 dot_S1024x1024_S1024x1024_S1024x1024_0_0_1_1_n_n 1024 rfl rfl).symm]
  refine Finset.sum_congr rfl fun k _ => ?_
  have hk := ValueIdx.contrEquiv1_symm_val dot_S1024x1024_S1024x1024_S1024x1024_0_0_1_1_n_n 1024 rfl rfl k
  have el : dot_S1024x1024_S1024x1024_S1024x1024_0_0_1_1_n_n.lhsIdx (ix2 p q) ((ValueIdx.contrEquiv1 dot_S1024x1024_S1024x1024_S1024x1024_0_0_1_1_n_n 1024 rfl rfl).symm k) = ix2 k p := funext fun a => Fin.ext (by
    match a with
    | ⟨0, _⟩ => exact (lhsContr_col _ _).trans hk
    | ⟨1, _⟩ => exact lhsCol_col _ _)
  have er : dot_S1024x1024_S1024x1024_S1024x1024_0_0_1_1_n_n.rhsIdx (ix2 p q) ((ValueIdx.contrEquiv1 dot_S1024x1024_S1024x1024_S1024x1024_0_0_1_1_n_n 1024 rfl rfl).symm k) = ix2 k q := funext fun a => Fin.ext (by
    match a with
    | ⟨0, _⟩ => exact (rhsContr_col _ _).trans hk
    | ⟨1, _⟩ => exact rhsCol_col _ _)
  rw [el, er]

theorem addBlockAt_col (x : Vec Ideal S1024x1024 .f32) (w : Vec Ideal S1024x1024 .bf16) (s : Vec Ideal S1024x1024 .f32) (p q : Fin 1024) :
    addBlock_col (F := Ideal) x w s (ix2 p q) = s (ix2 p q) + ∑ kk : Fin 1024, x (ix2 kk p) * w (ix2 kk q) := by
  show k2_pay2 (F := Ideal) x w s (ix2 p q) = _
  unfold k2_pay2
  refine (congrFun (shapeCast_self _ _) _).trans ?_
  refine (addf_apply _ _ _).trans ?_
  refine congrArg (s (ix2 p q) + ·) ?_
  refine (blockProd_col _ _ p q).trans ?_
  refine Finset.sum_congr rfl fun kk _ => ?_
  exact congrArg (x (ix2 kk p) * ·) (congrFun (shapeCast_self _ _) _)

theorem clearedAt_col (i : S1024x1024.Idx) : k2_pay1 (F := Ideal) i = 0 := by
  unfold k2_pay1
  refine (congrFun (shapeCast_self _ _) i).trans ?_
  exact Ideal.ofBits_zero_f32

theorem startBlockAt_col (x : Vec Ideal S1024x1024 .f32) (w : Vec Ideal S1024x1024 .bf16) (p q : Fin 1024) :
    startBlock_col (F := Ideal) x w (ix2 p q) = 0 + ∑ kk : Fin 1024, x (ix2 kk p) * w (ix2 kk q) := by
  show addBlock_col (F := Ideal) x w (k2_pay1 (F := Ideal)) (ix2 p q) = _
  rw [addBlockAt_col, clearedAt_col]

def termAt_col (W R : Cert.Spec.Sq) (r cc : Fin 4096) (n : ℕ) : EReal :=
  if h : n < 4096 then W (ix2 ⟨n, h⟩ r) * R (ix2 ⟨n, h⟩ cc) else 0

section Run

variable {N : ℕ} (x : Fin N → Vec Ideal S1024x1024 .f32) (w : Fin N → Vec Ideal S1024x1024 .bf16)

-- The block product of point n at an entry of the block (zero past the grid, where it is never read).
def prodAt_col (n : ℕ) (i : S1024x1024.Idx) : EReal :=
  if h : n < N then ∑ kk : Fin 1024, x ⟨n, h⟩ (ix2 kk (i 0 : Fin 1024)) * w ⟨n, h⟩ (ix2 kk (i 1 : Fin 1024)) else 0

-- At the last point of a run the running sum is zero plus the run's four block products, in point order.
theorem sumLast_col (t : Fin N) (ht : t.val % 4 = 3) (i : S1024x1024.Idx) :
    Cert.Spec.runSum (startBlock_col (F := Ideal)) (addBlock_col (F := Ideal)) x w t.val t.isLt i
      = 0 + ∑ s ∈ Finset.range (3 + 1), prodAt_col x w (4 * (t.val / 4) + s) i := by
  have hq : 4 * (t.val / 4) + 3 < N := by have := t.isLt; omega
  refine (congrFun (Cert.Spec.runSum_congr _ _ x w _ _ t.isLt hq (by omega)) i).trans ?_
  refine (congrFun (Pipeline.eq_accAt (fun n h => Cert.Spec.runSum (startBlock_col (F := Ideal)) (addBlock_col (F := Ideal)) x w n h) 4
    (fun n h => startBlock_col (x ⟨n, h⟩) (w ⟨n, h⟩))
    (fun n h acc => addBlock_col (x ⟨n, h⟩) (w ⟨n, h⟩) acc)
    (fun n h hm => Cert.Spec.runSum_first _ _ _ _ ⟨n, h⟩ hm)
    (fun n h hm => Cert.Spec.runSum_next _ _ _ _ ⟨n + 1, h⟩ hm)
    (t.val / 4) 3 (by decide) hq) i).trans ?_
  refine Pipeline.accAt_add_apply _ _ (fun _ => 0) (prodAt_col x w) (4 * (t.val / 4)) 3 ?_ ?_ 3 (Nat.le_refl _) hq i
  · intro h j
    obtain ⟨p, q, rfl⟩ : ∃ (p q : Fin 1024), j = ix2 p q := ⟨j 0, j 1, eq_ix2 j⟩
    rw [startBlockAt_col]
    unfold prodAt_col
    rw [dif_pos h]
  · intro n h acc j _ _
    obtain ⟨p, q, rfl⟩ : ∃ (p q : Fin 1024), j = ix2 p q := ⟨j 0, j 1, eq_ix2 j⟩
    rw [addBlockAt_col]
    unfold prodAt_col
    rw [dif_pos h]

end Run

section Blocks

variable {N : ℕ} (x : Fin N → Vec Ideal S1024x1024 .f32) (w : Fin N → Vec Ideal S1024x1024 .bf16) (X W : Cert.Spec.Sq)

-- If the blocks are cut out of the arrays X and W where the grid's index maps say (K block t % 4, row block t / 16, column block t / 4 % 4), the sum a run leaves is its block of Xᵀ · W.
theorem prodAtEq_col
    (hx : ∀ (t : Fin N) (y : S1024x1024.Idx) (k : S4096x4096.Idx), (k 0).val = t.val % 4 * 1024 + (y 0).val → (k 1).val = t.val / 16 * 1024 + (y 1).val → x t y = X k)
    (hw : ∀ (t : Fin N) (y : S1024x1024.Idx) (k : S4096x4096.Idx), (k 0).val = t.val % 4 * 1024 + (y 0).val → (k 1).val = t.val / 4 % 4 * 1024 + (y 1).val → w t y = W k)
    (t : Fin N) (ht : t.val % 4 = 3) (s : ℕ) (hs : s < 4) (y : S1024x1024.Idx) (r cc : Fin 4096)
    (hr : r.val = t.val / 16 * 1024 + (y 0).val) (hc : cc.val = t.val / 4 % 4 * 1024 + (y 1).val) :
    prodAt_col x w (4 * (t.val / 4) + s) y = ∑ kk : Fin 1024, termAt_col X W r cc (s * 1024 + 1 * kk.val) := by
  have hn : 4 * (t.val / 4) + s < N := by have := t.isLt; omega
  unfold prodAt_col
  rw [dif_pos hn]
  refine Finset.sum_congr rfl fun kk _ => ?_
  have hk : s * 1024 + 1 * kk.val < 4096 := by have := kk.isLt; omega
  unfold termAt_col
  rw [dif_pos hk]
  have eX : x ⟨4 * (t.val / 4) + s, hn⟩ (ix2 kk (y 0 : Fin 1024)) = X (ix2 ⟨s * 1024 + 1 * kk.val, hk⟩ r) := by
    refine hx ⟨4 * (t.val / 4) + s, hn⟩ _ _ ?_ ?_
    · show s * 1024 + 1 * kk.val = (4 * (t.val / 4) + s) % 4 * 1024 + kk.val; omega
    · show r.val = (4 * (t.val / 4) + s) / 16 * 1024 + (y 0).val; rw [hr]; omega
  have eW : w ⟨4 * (t.val / 4) + s, hn⟩ (ix2 kk (y 1 : Fin 1024)) = W (ix2 ⟨s * 1024 + 1 * kk.val, hk⟩ cc) := by
    refine hw ⟨4 * (t.val / 4) + s, hn⟩ _ _ ?_ ?_
    · show s * 1024 + 1 * kk.val = (4 * (t.val / 4) + s) % 4 * 1024 + kk.val; omega
    · show cc.val = (4 * (t.val / 4) + s) / 4 % 4 * 1024 + (y 1).val; rw [hc]; omega
  rw [eX, eW]

theorem lastSum_col
    (hx : ∀ (t : Fin N) (y : S1024x1024.Idx) (k : S4096x4096.Idx), (k 0).val = t.val % 4 * 1024 + (y 0).val → (k 1).val = t.val / 16 * 1024 + (y 1).val → x t y = X k)
    (hw : ∀ (t : Fin N) (y : S1024x1024.Idx) (k : S4096x4096.Idx), (k 0).val = t.val % 4 * 1024 + (y 0).val → (k 1).val = t.val / 4 % 4 * 1024 + (y 1).val → w t y = W k)
    (t : Fin N) (ht : t.val % 4 = 3) (y : S1024x1024.Idx) (k : S4096x4096.Idx)
    (hk0 : (k 0).val = t.val / 16 * 1024 + (y 0).val) (hk1 : (k 1).val = t.val / 4 % 4 * 1024 + (y 1).val) :
    Cert.Spec.runSum (startBlock_col (F := Ideal)) (addBlock_col (F := Ideal)) x w t.val t.isLt y = Cert.Spec.colDot X W k := by
  rw [sumLast_col x w t ht y]
  show _ = Cert.Spec.colDotAt _ _ ⟨(k 0).val, (k 0).isLt⟩ ⟨(k 1).val, (k 1).isLt⟩
  unfold Cert.Spec.colDotAt
  rw [Finset.sum_congr rfl fun s hs => prodAtEq_col x w X W hx hw t ht s (Finset.mem_range.mp hs) y ⟨(k 0).val, (k 0).isLt⟩ ⟨(k 1).val, (k 1).isLt⟩ hk0 hk1]
  rw [Cert.Spec.sum_four_runs' (termAt_col X W ⟨(k 0).val, (k 0).isLt⟩ ⟨(k 1).val, (k 1).isLt⟩)]
  refine Finset.sum_congr rfl fun n _ => ?_
  unfold termAt_col
  rw [dif_pos n.isLt]

end Blocks

end Cert.KernelIdeal.Hand
end
-- ==== Proof.ValueR2.lean ====
import proofs.«140595_j18622978196102_1_alg».proof.Proof.PipeR2
import proofs.«140595_j18622978196102_1_alg».proof.Proof.ValueCol

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem idx_R2 : ∀ t : Fin cfg2.N,
    win2_0.index t (0 : Fin 2) = t.val % 4 ∧ win2_0.index t (1 : Fin 2) = t.val / 16
    ∧ win2_1.index t (0 : Fin 2) = t.val % 4 ∧ win2_1.index t (1 : Fin 2) = t.val / 4 % 4
    ∧ win2_2.index t (0 : Fin 2) = t.val / 16 ∧ win2_2.index t (1 : Fin 2) = t.val / 4 % 4 :=
  (by decide +kernel : ∀ t : Fin grid2.N, _)

section Blocks_R2

variable (V : (c : Dev nD) → (b : Ref sig .tc) → Buf (Elt Ideal) ((c : Thread nD τ).loc b))

theorem xBlkAt_R2 (c : Dev nD) (t : Fin cfg2.N) (y : S1024x1024.Idx) (k : S4096x4096.Idx)
    (hk0 : (k 0).val = t.val % 4 * 1024 + (y 0).val) (hk1 : (k 1).val = t.val / 16 * 1024 + (y 1).val) :
    xBlk_R2 V c t y = V c (Pipeline.arrRef spec2 0) k := by
  obtain ⟨eA, eB, -⟩ := idx_R2 t
  show blk_R2 V c 0 t y = _
  unfold blk_R2
  rw [View.read_apply]
  show V c (Pipeline.arrRef spec2 0) _ = V c (Pipeline.arrRef spec2 0) k
  congr 1
  funext a
  apply Fin.ext
  match a with
  | ⟨0, _⟩ => show win2_0.index t 0 * 1024 + 1 * (y 0).val = (k 0).val; rw [eA, hk0]; omega
  | ⟨1, _⟩ => show win2_0.index t 1 * 1024 + 1 * (y 1).val = (k 1).val; rw [eB, hk1]; omega

theorem wBlkAt_R2 (c : Dev nD) (t : Fin cfg2.N) (y : S1024x1024.Idx) (k : S4096x4096.Idx)
    (hk0 : (k 0).val = t.val % 4 * 1024 + (y 0).val) (hk1 : (k 1).val = t.val / 4 % 4 * 1024 + (y 1).val) :
    wBlk_R2 V c t y = V c (Pipeline.arrRef spec2 1) k := by
  obtain ⟨-, -, eA, eB, -⟩ := idx_R2 t
  show blk_R2 V c 1 t y = _
  unfold blk_R2
  rw [View.read_apply]
  show V c (Pipeline.arrRef spec2 1) _ = V c (Pipeline.arrRef spec2 1) k
  congr 1
  funext a
  apply Fin.ext
  match a with
  | ⟨0, _⟩ => show win2_1.index t 0 * 1024 + 1 * (y 0).val = (k 0).val; rw [eA, hk0]; omega
  | ⟨1, _⟩ => show win2_1.index t 1 * 1024 + 1 * (y 1).val = (k 1).val; rw [eB, hk1]; omega

end Blocks_R2

section Value_R2

variable (V : (c : Dev nD) → (b : Ref sig .tc) → Buf (Elt Ideal) ((c : Thread nD τ).loc b))

theorem flushed_R2 (c : Dev nD) (t : Fin cfg2.N) (hf : (cfg2.win 2).flush t = true) :
    (dat_R2 V c).flushed 2 t
      = ((cfg2.win 2).blk t).view.read (Elt Ideal) (Cert.Spec.colDot (V c (Pipeline.arrRef spec2 0)) (V c (Pipeline.arrRef spec2 1))) := by
  have ht : t.val % 4 = 3 := (flush2_2 t).mp hf
  obtain ⟨-, -, -, -, eA, eB⟩ := idx_R2 t
  show (cfg2.win 2).cut (grid2.coords t) ((dat_R2 V c).after 2 t) = _
  rw [dat_R2_after2]
  funext y
  show sumAfter_R2 V c t.val t.isLt _ = Cert.Spec.colDot (V c (Pipeline.arrRef spec2 0)) (V c (Pipeline.arrRef spec2 1)) (((cfg2.win 2).blk t).view.emb y)
  refine lastSum_col _ _ _ _ (xBlkAt_R2 V c) (wBlkAt_R2 V c) t ht _ _ ?_ ?_
  · show win2_2.index t 0 * 1024 + 1 * (y 0).val = t.val / 16 * 1024 + (y 0).val; rw [eA]; omega
  · show win2_2.index t 1 * 1024 + 1 * (y 1).val = t.val / 4 % 4 * 1024 + (y 1).val; rw [eB]; omega

theorem memBlk_R2 (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole (Pipeline.arrRef spec2 2)).slice (win2_2.rect t)).set ↔ _
  rw [View.set_slice_whole, Rect.mem_set_unit]
  exact Iff.rfl

theorem out_R2 (c : Dev nD) :
    (dat_R2 (F := Ideal) V c).arrAt 2 cfg2.N
      = Cert.Spec.colDot (V c (Pipeline.arrRef spec2 0)) (V c (Pipeline.arrRef spec2 1)) :=
  (dat_R2 V c).arrAt_eq_of_cover 2 _ (fun t hf => flushed_R2 V c t hf) fun i => by
    have hi0 : (i 0).val < 4096 := (i 0).isLt
    have hi1 : (i 1).val < 4096 := (i 1).isLt
    have hN : cfg2.N = 64 := N_2
    obtain ⟨t, htv⟩ : ∃ t : Fin cfg2.N, t.val = 16 * ((i 0).val / 1024) + 4 * ((i 1).val / 1024) + 3 := ⟨⟨_, by omega⟩, rfl⟩
    refine ⟨t, (flush2_2 t).mpr (by omega), ?_⟩
    rw [memBlk_R2]
    obtain ⟨-, -, -, -, eA, eB⟩ := idx_R2 t
    intro a
    match a with
    | ⟨0, _⟩ => show win2_2.index t 0 * 1024 ≤ (i 0).val ∧ (i 0).val < win2_2.index t 0 * 1024 + 1024; rw [eA]; omega
    | ⟨1, _⟩ => show win2_2.index t 1 * 1024 ≤ (i 1).val ∧ (i 1).val < win2_2.index t 1 * 1024 + 1024; rw [eB]; omega

end Value_R2

end Cert.KernelIdeal.Hand
end
-- ==== Proof.PipeR3.lean ====
import proofs.«140595_j18622978196102_1_alg».proof.Proof.StepCol

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R3

variable (V : (c : Dev nD) → (b : Ref sig .tc) → Buf (Elt F) ((c : Thread nD τ).loc b))

-- The block of operand w at point t, cut out of its array as the region finds it.
def blk_R3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xBlk_R3 (c : Dev nD) (t : Fin cfg3.N) : Vec F S1024x1024 .f32 := blk_R3 V c 0 t
abbrev wBlk_R3 (c : Dev nD) (t : Fin cfg3.N) : Vec F S1024x1024 .bf16 := blk_R3 V c 1 t

abbrev sumAfter_R3 (c : Dev nD) : (n : ℕ) → n < cfg3.N → Vec F S1024x1024 .f32 :=
  runSum (startBlock_col (F := F)) (addBlock_col (F := F)) (xBlk_R3 V c) (wBlk_R3 V c)

abbrev acc_R3 : Memref sig .tc .vmem S1024x1024 .f32 := Memref.whole cc3_scratch0

abbrev aside_R3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

-- What every point leaves: the input blocks as found, the output block at the finished sum where it is written, the running sum between points.
def dat_R3 (c : Dev nD) : Dat τ (Elt F) Unit ℕ (UR sig nD τ) ℕ cfg3 c where
  A w := V c (Pipeline.arrRef spec3 w)
  after w t := match w with
    | ⟨0, _⟩ => blk_R3 V c 0 t
    | ⟨1, _⟩ => blk_R3 V c 1 t
    | ⟨2, _⟩ => sumAfter_R3 V c t.val t.isLt
  Φ t := between c acc_R3 (aside_R3 c) (sumAfter_R3 V c) t.val (Nat.le_of_lt_succ t.isLt)
  q _ := fullShare
  owed _ := 0

theorem dat_R3_A (c : Dev nD) (w : Fin cfg3.W) : (dat_R3 V c).A w = V c (Pipeline.arrRef spec3 w) := by dsimp only [dat_R3]
theorem dat_R3_after0 (c : Dev nD) (t : Fin cfg3.N) : (dat_R3 V c).after 0 t = blk_R3 V c 0 t := by dsimp only [dat_R3]
theorem dat_R3_after1 (c : Dev nD) (t : Fin cfg3.N) : (dat_R3 V c).after 1 t = blk_R3 V c 1 t := by dsimp only [dat_R3]
theorem dat_R3_after2 (c : Dev nD) (t : Fin cfg3.N) : (dat_R3 V c).after 2 t = sumAfter_R3 V c t.val t.isLt := by dsimp only [dat_R3]

theorem dat_R3_before0 (c : Dev nD) (t : Fin cfg3.N) (d) : (dat_R3 V c).before 0 t d = blk_R3 V c 0 t :=
  ((dat_R3 V c).before_in_eq_fetched 0 rfl (fun _ => rfl) (fun _ _ _ => rfl)
    (fun t => by rw [dat_R3_after0]; unfold Dat.blockOf blk_R3; rw [dat_R3_A]; try rfl) t d).trans
    (by unfold Dat.fetched Dat.blockOf blk_R3; rw [dat_R3_A]; try rfl)
theorem dat_R3_before1 (c : Dev nD) (t : Fin cfg3.N) (d) : (dat_R3 V c).before 1 t d = blk_R3 V c 1 t :=
  ((dat_R3 V c).before_in_eq_fetched 1 rfl (fun _ => rfl) (fun _ _ _ => rfl)
    (fun t => by rw [dat_R3_after1]; unfold Dat.blockOf blk_R3; rw [dat_R3_A]; try rfl) t d).trans
    (by unfold Dat.fetched Dat.blockOf blk_R3; rw [dat_R3_A]; try rfl)

theorem live_R3_0 : ∀ t : Fin cfg3.N, cfg3.idle 0 (grid3.coords t) = false := by decide +kernel
theorem live_R3_1 : ∀ t : Fin cfg3.N, cfg3.idle 1 (grid3.coords t) = false := by decide +kernel
theorem idle_R3_2 : ∀ t : Fin cfg3.N, ¬t.val % 4 = 3 → cfg3.idle 2 (grid3.coords t) = true := by decide +kernel
theorem noFlush_R3_2 : ∀ t : Fin cfg3.N, ¬t.val % 4 = 3 → (cfg3.win 2).flush t = false := by decide +kernel
theorem live_R3_2 : ∀ t : Fin cfg3.N, t.val % 4 = 3 → cfg3.idle 2 (grid3.coords t) = false := by decide +kernel

end Data_R3

section Obligation_R3

variable (V : (c : Dev nD) → (b : Ref sig .tc) → Buf (Elt F) ((c : Thread nD τ).loc b))

def handed_R3 (c : Dev nD) (t : Fin cfg3.N) : sProp 𝕄 :=
  iprop((dat_R3 V c).Φ t.castSucc ∗ (dat_R3 V c).owesAt () t.castSucc
    ∗ (∃ d, owns (c : Thread nD τ) (st3_0 t) fullShare ((dat_R3 V c).before 0 t d))
    ∗ (∃ d, owns (c : Thread nD τ) (st3_1 t) fullShare ((dat_R3 V c).before 1 t d))
    ∗ (∃ d, owns (c : Thread nD τ) (st3_2 t) fullShare ((dat_R3 V c).before 2 t d)))

def returned_R3 (c : Dev nD) (t : Fin cfg3.N) : sProp 𝕄 :=
  iprop((dat_R3 V c).Φ t.succ ∗ (dat_R3 V c).owesAt () t.succ
    ∗ (dat_R3 V c).leavesExact 0 t ∗ (dat_R3 V c).leavesExact 1 t ∗ (dat_R3 V c).leavesExact 2 t)

theorem leaves_R3_0 (c : Dev nD) (t : Fin cfg3.N) :
    (dat_R3 V c).leavesExact 0 t = owns (c : Thread nD τ) (st3_0 t) fullShare (blk_R3 V c 0 t) := by
  unfold Dat.leavesExact; rw [live_R3_0 t, dat_R3_after0]
theorem leaves_R3_1 (c : Dev nD) (t : Fin cfg3.N) :
    (dat_R3 V c).leavesExact 1 t = owns (c : Thread nD τ) (st3_1 t) fullShare (blk_R3 V c 1 t) := by
  unfold Dat.leavesExact; rw [live_R3_1 t, dat_R3_after1]

-- The output block after the point: the finished sum where the point ends a run, else as found.
theorem leaves_R3_2 (c : Dev nD) (t : Fin cfg3.N) (d) :
    owns (c : Thread nD τ) (st3_2 t) fullShare (if t.val % 4 = 3 then (stepSum (startBlock_col (F := F)) (addBlock_col (F := F)) t.val (xBlk_R3 V c t) (wBlk_R3 V c t) (sumAfter_R3 V c (t.val - 1) (Nat.lt_of_le_of_lt (Nat.sub_le _ _) t.isLt))) else (dat_R3 V c).before 2 t d)
      ⊢ (dat_R3 V c).leavesExact 2 t := by
  rw [← runSum_step]
  by_cases h3 : t.val % 4 = 3
  · rw [if_pos h3, show (dat_R3 V c).leavesExact 2 t = owns (c : Thread nD τ) (st3_2 t) fullShare ((dat_R3 V c).after 2 t) from by
      unfold Dat.leavesExact; rw [live_R3_2 t h3], dat_R3_after2]
  · rw [if_neg h3, Dat.leavesExact_idle (dat_R3 V c) 2 t (idle_R3_2 t h3) (noFlush_R3_2 t h3)]
    iintro H; iexists _; iexact H

set_option maxHeartbeats 2000000 in
theorem point_R3 (c : Dev nD) (t : Fin cfg3.N) :
    handed_R3 V c t ⊢ wp frame (wpE (defs₀ (F := F)) Variants.none c none) Set.univ (bodyAt3 t) (fun _ => returned_R3 V c t) := by
  unfold handed_R3 returned_R3 bodyAt3
  simp only [dat_R3_before0, dat_R3_before1, leaves_R3_0, leaves_R3_1]
  exact point_col (body := cc3_matmul_atb_kernel) rfl c (grid3.coords t) t.val (firstK_col_iff t) (lastK_col_iff t) _ _ _ _ _ _ _ _
    (xBlk_R3 V c t) (wBlk_R3 V c t) (sumAfter_R3 V c (t.val - 1) (Nat.lt_of_le_of_lt (Nat.sub_le _ _) t.isLt))
    (fun d => (dat_R3 V c).before 2 t d) _ _ _ _ (aside_R3 c)
    (between_found c acc_R3 (aside_R3 c) (sumAfter_R3 V c) t)
    (between_left c acc_R3 (aside_R3 c) (sumAfter_R3 V c) t _ (runSum_step _ _ _ _ t))
    (fun d => leaves_R3_2 V c t d)

theorem body_R3 (c : Dev nD) : BodyObligation (dat_R3 (F := F) V c) (defs₀ (F := F)) Variants.none () Set.univ := fun t => by
  rw [bigSep_W3, bigSep_W3]
  exact point_R3 V c t

end Obligation_R3

end Cert.KernelIdeal.Hand
end
-- ==== Proof.ValueR3.lean ====
import proofs.«140595_j18622978196102_1_alg».proof.Proof.PipeR3
import proofs.«140595_j18622978196102_1_alg».proof.Proof.ValueCol

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem idx_R3 : ∀ t : Fin cfg3.N,
    win3_0.index t (0 : Fin 2) = t.val % 4 ∧ win3_0.index t (1 : Fin 2) = t.val / 16
    ∧ win3_1.index t (0 : Fin 2) = t.val % 4 ∧ win3_1.index t (1 : Fin 2) = t.val / 4 % 4
    ∧ win3_2.index t (0 : Fin 2) = t.val / 16 ∧ win3_2.index t (1 : Fin 2) = t.val / 4 % 4 :=
  (by decide +kernel : ∀ t : Fin grid3.N, _)

section Blocks_R3

variable (V : (c : Dev nD) → (b : Ref sig .tc) → Buf (Elt Ideal) ((c : Thread nD τ).loc b))

theorem xBlkAt_R3 (c : Dev nD) (t : Fin cfg3.N) (y : S1024x1024.Idx) (k : S4096x4096.Idx)
    (hk0 : (k 0).val = t.val % 4 * 1024 + (y 0).val) (hk1 : (k 1).val = t.val / 16 * 1024 + (y 1).val) :
    xBlk_R3 V c t y = V c (Pipeline.arrRef spec3 0) k := by
  obtain ⟨eA, eB, -⟩ := idx_R3 t
  show blk_R3 V c 0 t y = _
  unfold blk_R3
  rw [View.read_apply]
  show V c (Pipeline.arrRef spec3 0) _ = V c (Pipeline.arrRef spec3 0) k
  congr 1
  funext a
  apply Fin.ext
  match a with
  | ⟨0, _⟩ => show win3_0.index t 0 * 1024 + 1 * (y 0).val = (k 0).val; rw [eA, hk0]; omega
  | ⟨1, _⟩ => show win3_0.index t 1 * 1024 + 1 * (y 1).val = (k 1).val; rw [eB, hk1]; omega

theorem wBlkAt_R3 (c : Dev nD) (t : Fin cfg3.N) (y : S1024x1024.Idx) (k : S4096x4096.Idx)
    (hk0 : (k 0).val = t.val % 4 * 1024 + (y 0).val) (hk1 : (k 1).val = t.val / 4 % 4 * 1024 + (y 1).val) :
    wBlk_R3 V c t y = V c (Pipeline.arrRef spec3 1) k := by
  obtain ⟨-, -, eA, eB, -⟩ := idx_R3 t
  show blk_R3 V c 1 t y = _
  unfold blk_R3
  rw [View.read_apply]
  show V c (Pipeline.arrRef spec3 1) _ = V c (Pipeline.arrRef spec3 1) k
  congr 1
  funext a
  apply Fin.ext
  match a with
  | ⟨0, _⟩ => show win3_1.index t 0 * 1024 + 1 * (y 0).val = (k 0).val; rw [eA, hk0]; omega
  | ⟨1, _⟩ => show win3_1.index t 1 * 1024 + 1 * (y 1).val = (k 1).val; rw [eB, hk1]; omega

end Blocks_R3

section Value_R3

variable (V : (c : Dev nD) → (b : Ref sig .tc) → Buf (Elt Ideal) ((c : Thread nD τ).loc b))

theorem flushed_R3 (c : Dev nD) (t : Fin cfg3.N) (hf : (cfg3.win 2).flush t = true) :
    (dat_R3 V c).flushed 2 t
      = ((cfg3.win 2).blk t).view.read (Elt Ideal) (Cert.Spec.colDot (V c (Pipeline.arrRef spec3 0)) (V c (Pipeline.arrRef spec3 1))) := by
  have ht : t.val % 4 = 3 := (flush3_2 t).mp hf
  obtain ⟨-, -, -, -, eA, eB⟩ := idx_R3 t
  show (cfg3.win 2).cut (grid3.coords t) ((dat_R3 V c).after 2 t) = _
  rw [dat_R3_after2]
  funext y
  show sumAfter_R3 V c t.val t.isLt _ = Cert.Spec.colDot (V c (Pipeline.arrRef spec3 0)) (V c (Pipeline.arrRef spec3 1)) (((cfg3.win 2).blk t).view.emb y)
  refine lastSum_col _ _ _ _ (xBlkAt_R3 V c) (wBlkAt_R3 V c) t ht _ _ ?_ ?_
  · show win3_2.index t 0 * 1024 + 1 * (y 0).val = t.val / 16 * 1024 + (y 0).val; rw [eA]; omega
  · show win3_2.index t 1 * 1024 + 1 * (y 1).val = t.val / 4 % 4 * 1024 + (y 1).val; rw [eB]; omega

theorem memBlk_R3 (t : Fin cfg3.N) (i : S4096x4096.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole (Pipeline.arrRef spec3 2)).slice (win3_2.rect t)).set ↔ _
  rw [View.set_slice_whole, Rect.mem_set_unit]
  exact Iff.rfl

theorem out_R3 (c : Dev nD) :
    (dat_R3 (F := Ideal) V c).arrAt 2 cfg3.N
      = Cert.Spec.colDot (V c (Pipeline.arrRef spec3 0)) (V c (Pipeline.arrRef spec3 1)) :=
  (dat_R3 V c).arrAt_eq_of_cover 2 _ (fun t hf => flushed_R3 V c t hf) fun i => by
    have hi0 : (i 0).val < 4096 := (i 0).isLt
    have hi1 : (i 1).val < 4096 := (i 1).isLt
    have hN : cfg3.N = 64 := N_3
    obtain ⟨t, htv⟩ : ∃ t : Fin cfg3.N, t.val = 16 * ((i 0).val / 1024) + 4 * ((i 1).val / 1024) + 3 := ⟨⟨_, by omega⟩, rfl⟩
    refine ⟨t, (flush3_2 t).mpr (by omega), ?_⟩
    rw [memBlk_R3]
    obtain ⟨-, -, -, -, eA, eB⟩ := idx_R3 t
    intro a
    match a with
    | ⟨0, _⟩ => show win3_2.index t 0 * 1024 ≤ (i 0).val ∧ (i 0).val < win3_2.index t 0 * 1024 + 1024; rw [eA]; omega
    | ⟨1, _⟩ => show win3_2.index t 1 * 1024 ≤ (i 1).val ∧ (i 1).val < win3_2.index t 1 * 1024 + 1024; rw [eB]; omega

end Value_R3

end Cert.KernelIdeal.Hand
end
-- ==== Proof.PipeR4.lean ====
import proofs.«140595_j18622978196102_1_alg».proof.Proof.StepCol

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R4

variable (V : (c : Dev nD) → (b : Ref sig .tc) → Buf (Elt F) ((c : Thread nD τ).loc b))

-- The block of operand w at point t, cut out of its array as the region finds it.
def blk_R4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xBlk_R4 (c : Dev nD) (t : Fin cfg4.N) : Vec F S1024x1024 .f32 := blk_R4 V c 0 t
abbrev wBlk_R4 (c : Dev nD) (t : Fin cfg4.N) : Vec F S1024x1024 .bf16 := blk_R4 V c 1 t

abbrev sumAfter_R4 (c : Dev nD) : (n : ℕ) → n < cfg4.N → Vec F S1024x1024 .f32 :=
  runSum (startBlock_col (F := F)) (addBlock_col (F := F)) (xBlk_R4 V c) (wBlk_R4 V c)

abbrev acc_R4 : Memref sig .tc .vmem S1024x1024 .f32 := Memref.whole cc4_scratch0

abbrev aside_R4 (c : Dev nD) : sProp 𝕄 :=
  iprop(Pipeline.scopedRestBut (Ix := Unit) (Name := ℕ) (U := UR sig nD τ) (Lvl := ℕ) (Val := Elt F) spec4 c [cc4_scratch0] ∗ ∃ r, prngReg c r)

-- What every point leaves: the input blocks as found, the output block at the finished sum where it is written, the running sum between points.
def dat_R4 (c : Dev nD) : Dat τ (Elt F) Unit ℕ (UR sig nD τ) ℕ cfg4 c where
  A w := V c (Pipeline.arrRef spec4 w)
  after w t := match w with
    | ⟨0, _⟩ => blk_R4 V c 0 t
    | ⟨1, _⟩ => blk_R4 V c 1 t
    | ⟨2, _⟩ => sumAfter_R4 V c t.val t.isLt
  Φ t := between c acc_R4 (aside_R4 c) (sumAfter_R4 V c) t.val (Nat.le_of_lt_succ t.isLt)
  q _ := fullShare
  owed _ := 0

theorem dat_R4_A (c : Dev nD) (w : Fin cfg4.W) : (dat_R4 V c).A w = V c (Pipeline.arrRef spec4 w) := by dsimp only [dat_R4]
theorem dat_R4_after0 (c : Dev nD) (t : Fin cfg4.N) : (dat_R4 V c).after 0 t = blk_R4 V c 0 t := by dsimp only [dat_R4]
theorem dat_R4_after1 (c : Dev nD) (t : Fin cfg4.N) : (dat_R4 V c).after 1 t = blk_R4 V c 1 t := by dsimp only [dat_R4]
theorem dat_R4_after2 (c : Dev nD) (t : Fin cfg4.N) : (dat_R4 V c).after 2 t = sumAfter_R4 V c t.val t.isLt := by dsimp only [dat_R4]

theorem dat_R4_before0 (c : Dev nD) (t : Fin cfg4.N) (d) : (dat_R4 V c).before 0 t d = blk_R4 V c 0 t :=
  ((dat_R4 V c).before_in_eq_fetched 0 rfl (fun _ => rfl) (fun _ _ _ => rfl)
    (fun t => by rw [dat_R4_after0]; unfold Dat.blockOf blk_R4; rw [dat_R4_A]; try rfl) t d).trans
    (by unfold Dat.fetched Dat.blockOf blk_R4; rw [dat_R4_A]; try rfl)
theorem dat_R4_before1 (c : Dev nD) (t : Fin cfg4.N) (d) : (dat_R4 V c).before 1 t d = blk_R4 V c 1 t :=
  ((dat_R4 V c).before_in_eq_fetched 1 rfl (fun _ => rfl) (fun _ _ _ => rfl)
    (fun t => by rw [dat_R4_after1]; unfold Dat.blockOf blk_R4; rw [dat_R4_A]; try rfl) t d).trans
    (by unfold Dat.fetched Dat.blockOf blk_R4; rw [dat_R4_A]; try rfl)

theorem live_R4_0 : ∀ t : Fin cfg4.N, cfg4.idle 0 (grid4.coords t) = false := by decide +kernel
theorem live_R4_1 : ∀ t : Fin cfg4.N, cfg4.idle 1 (grid4.coords t) = false := by decide +kernel
theorem idle_R4_2 : ∀ t : Fin cfg4.N, ¬t.val % 4 = 3 → cfg4.idle 2 (grid4.coords t) = true := by decide +kernel
theorem noFlush_R4_2 : ∀ t : Fin cfg4.N, ¬t.val % 4 = 3 → (cfg4.win 2).flush t = false := by decide +kernel
theorem live_R4_2 : ∀ t : Fin cfg4.N, t.val % 4 = 3 → cfg4.idle 2 (grid4.coords t) = false := by decide +kernel

end Data_R4

section Obligation_R4

variable (V : (c : Dev nD) → (b : Ref sig .tc) → Buf (Elt F) ((c : Thread nD τ).loc b))

def handed_R4 (c : Dev nD) (t : Fin cfg4.N) : sProp 𝕄 :=
  iprop((dat_R4 V c).Φ t.castSucc ∗ (dat_R4 V c).owesAt () t.castSucc
    ∗ (∃ d, owns (c : Thread nD τ) (st4_0 t) fullShare ((dat_R4 V c).before 0 t d))
    ∗ (∃ d, owns (c : Thread nD τ) (st4_1 t) fullShare ((dat_R4 V c).before 1 t d))
    ∗ (∃ d, owns (c : Thread nD τ) (st4_2 t) fullShare ((dat_R4 V c).before 2 t d)))

def returned_R4 (c : Dev nD) (t : Fin cfg4.N) : sProp 𝕄 :=
  iprop((dat_R4 V c).Φ t.succ ∗ (dat_R4 V c).owesAt () t.succ
    ∗ (dat_R4 V c).leavesExact 0 t ∗ (dat_R4 V c).leavesExact 1 t ∗ (dat_R4 V c).leavesExact 2 t)

theorem leaves_R4_0 (c : Dev nD) (t : Fin cfg4.N) :
    (dat_R4 V c).leavesExact 0 t = owns (c : Thread nD τ) (st4_0 t) fullShare (blk_R4 V c 0 t) := by
  unfold Dat.leavesExact; rw [live_R4_0 t, dat_R4_after0]
theorem leaves_R4_1 (c : Dev nD) (t : Fin cfg4.N) :
    (dat_R4 V c).leavesExact 1 t = owns (c : Thread nD τ) (st4_1 t) fullShare (blk_R4 V c 1 t) := by
  unfold Dat.leavesExact; rw [live_R4_1 t, dat_R4_after1]

-- The output block after the point: the finished sum where the point ends a run, else as found.
theorem leaves_R4_2 (c : Dev nD) (t : Fin cfg4.N) (d) :
    owns (c : Thread nD τ) (st4_2 t) fullShare (if t.val % 4 = 3 then (stepSum (startBlock_col (F := F)) (addBlock_col (F := F)) t.val (xBlk_R4 V c t) (wBlk_R4 V c t) (sumAfter_R4 V c (t.val - 1) (Nat.lt_of_le_of_lt (Nat.sub_le _ _) t.isLt))) else (dat_R4 V c).before 2 t d)
      ⊢ (dat_R4 V c).leavesExact 2 t := by
  rw [← runSum_step]
  by_cases h3 : t.val % 4 = 3
  · rw [if_pos h3, show (dat_R4 V c).leavesExact 2 t = owns (c : Thread nD τ) (st4_2 t) fullShare ((dat_R4 V c).after 2 t) from by
      unfold Dat.leavesExact; rw [live_R4_2 t h3], dat_R4_after2]
  · rw [if_neg h3, Dat.leavesExact_idle (dat_R4 V c) 2 t (idle_R4_2 t h3) (noFlush_R4_2 t h3)]
    iintro H; iexists _; iexact H

set_option maxHeartbeats 2000000 in
theorem point_R4 (c : Dev nD) (t : Fin cfg4.N) :
    handed_R4 V c t ⊢ wp frame (wpE (defs₀ (F := F)) Variants.none c none) Set.univ (bodyAt4 t) (fun _ => returned_R4 V c t) := by
  unfold handed_R4 returned_R4 bodyAt4
  simp only [dat_R4_before0, dat_R4_before1, leaves_R4_0, leaves_R4_1]
  exact point_col (body := cc4_matmul_atb_kernel) rfl c (grid4.coords t) t.val (firstK_col_iff t) (lastK_col_iff t) _ _ _ _ _ _ _ _
    (xBlk_R4 V c t) (wBlk_R4 V c t) (sumAfter_R4 V c (t.val - 1) (Nat.lt_of_le_of_lt (Nat.sub_le _ _) t.isLt))
    (fun d => (dat_R4 V c).before 2 t d) _ _ _ _ (aside_R4 c)
    (between_found c acc_R4 (aside_R4 c) (sumAfter_R4 V c) t)
    (between_left c acc_R4 (aside_R4 c) (sumAfter_R4 V c) t _ (runSum_step _ _ _ _ t))
    (fun d => leaves_R4_2 V c t d)

theorem body_R4 (c : Dev nD) : BodyObligation (dat_R4 (F := F) V c) (defs₀ (F := F)) Variants.none () Set.univ := fun t => by
  rw [bigSep_W4, bigSep_W4]
  exact point_R4 V c t

end Obligation_R4

end Cert.KernelIdeal.Hand
end
-- ==== Proof.ValueR4.lean ====
import proofs.«140595_j18622978196102_1_alg».proof.Proof.PipeR4
import proofs.«140595_j18622978196102_1_alg».proof.Proof.ValueCol

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem idx_R4 : ∀ t : Fin cfg4.N,
    win4_0.index t (0 : Fin 2) = t.val % 4 ∧ win4_0.index t (1 : Fin 2) = t.val / 16
    ∧ win4_1.index t (0 : Fin 2) = t.val % 4 ∧ win4_1.index t (1 : Fin 2) = t.val / 4 % 4
    ∧ win4_2.index t (0 : Fin 2) = t.val / 16 ∧ win4_2.index t (1 : Fin 2) = t.val / 4 % 4 :=
  (by decide +kernel : ∀ t : Fin grid4.N, _)

section Blocks_R4

variable (V : (c : Dev nD) → (b : Ref sig .tc) → Buf (Elt Ideal) ((c : Thread nD τ).loc b))

theorem xBlkAt_R4 (c : Dev nD) (t : Fin cfg4.N) (y : S1024x1024.Idx) (k : S4096x4096.Idx)
    (hk0 : (k 0).val = t.val % 4 * 1024 + (y 0).val) (hk1 : (k 1).val = t.val / 16 * 1024 + (y 1).val) :
    xBlk_R4 V c t y = V c (Pipeline.arrRef spec4 0) k := by
  obtain ⟨eA, eB, -⟩ := idx_R4 t
  show blk_R4 V c 0 t y = _
  unfold blk_R4
  rw [View.read_apply]
  show V c (Pipeline.arrRef spec4 0) _ = V c (Pipeline.arrRef spec4 0) k
  congr 1
  funext a
  apply Fin.ext
  match a with
  | ⟨0, _⟩ => show win4_0.index t 0 * 1024 + 1 * (y 0).val = (k 0).val; rw [eA, hk0]; omega
  | ⟨1, _⟩ => show win4_0.index t 1 * 1024 + 1 * (y 1).val = (k 1).val; rw [eB, hk1]; omega

theorem wBlkAt_R4 (c : Dev nD) (t : Fin cfg4.N) (y : S1024x1024.Idx) (k : S4096x4096.Idx)
    (hk0 : (k 0).val = t.val % 4 * 1024 + (y 0).val) (hk1 : (k 1).val = t.val / 4 % 4 * 1024 + (y 1).val) :
    wBlk_R4 V c t y = V c (Pipeline.arrRef spec4 1) k := by
  obtain ⟨-, -, eA, eB, -⟩ := idx_R4 t
  show blk_R4 V c 1 t y = _
  unfold blk_R4
  rw [View.read_apply]
  show V c (Pipeline.arrRef spec4 1) _ = V c (Pipeline.arrRef spec4 1) k
  congr 1
  funext a
  apply Fin.ext
  match a with
  | ⟨0, _⟩ => show win4_1.index t 0 * 1024 + 1 * (y 0).val = (k 0).val; rw [eA, hk0]; omega
  | ⟨1, _⟩ => show win4_1.index t 1 * 1024 + 1 * (y 1).val = (k 1).val; rw [eB, hk1]; omega

end Blocks_R4

section Value_R4

variable (V : (c : Dev nD) → (b : Ref sig .tc) → Buf (Elt Ideal) ((c : Thread nD τ).loc b))

theorem flushed_R4 (c : Dev nD) (t : Fin cfg4.N) (hf : (cfg4.win 2).flush t = true) :
    (dat_R4 V c).flushed 2 t
      = ((cfg4.win 2).blk t).view.read (Elt Ideal) (Cert.Spec.colDot (V c (Pipeline.arrRef spec4 0)) (V c (Pipeline.arrRef spec4 1))) := by
  have ht : t.val % 4 = 3 := (flush4_2 t).mp hf
  obtain ⟨-, -, -, -, eA, eB⟩ := idx_R4 t
  show (cfg4.win 2).cut (grid4.coords t) ((dat_R4 V c).after 2 t) = _
  rw [dat_R4_after2]
  funext y
  show sumAfter_R4 V c t.val t.isLt _ = Cert.Spec.colDot (V c (Pipeline.arrRef spec4 0)) (V c (Pipeline.arrRef spec4 1)) (((cfg4.win 2).blk t).view.emb y)
  refine lastSum_col _ _ _ _ (xBlkAt_R4 V c) (wBlkAt_R4 V c) t ht _ _ ?_ ?_
  · show win4_2.index t 0 * 1024 + 1 * (y 0).val = t.val / 16 * 1024 + (y 0).val; rw [eA]; omega
  · show win4_2.index t 1 * 1024 + 1 * (y 1).val = t.val / 4 % 4 * 1024 + (y 1).val; rw [eB]; omega

theorem memBlk_R4 (t : Fin cfg4.N) (i : S4096x4096.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole (Pipeline.arrRef spec4 2)).slice (win4_2.rect t)).set ↔ _
  rw [View.set_slice_whole, Rect.mem_set_unit]
  exact Iff.rfl

theorem out_R4 (c : Dev nD) :
    (dat_R4 (F := Ideal) V c).arrAt 2 cfg4.N
      = Cert.Spec.colDot (V c (Pipeline.arrRef spec4 0)) (V c (Pipeline.arrRef spec4 1)) :=
  (dat_R4 V c).arrAt_eq_of_cover 2 _ (fun t hf => flushed_R4 V c t hf) fun i => by
    have hi0 : (i 0).val < 4096 := (i 0).isLt
    have hi1 : (i 1).val < 4096 := (i 1).isLt
    have hN : cfg4.N = 64 := N_4
    obtain ⟨t, htv⟩ : ∃ t : Fin cfg4.N, t.val = 16 * ((i 0).val / 1024) + 4 * ((i 1).val / 1024) + 3 := ⟨⟨_, by omega⟩, rfl⟩
    refine ⟨t, (flush4_2 t).mpr (by omega), ?_⟩
    rw [memBlk_R4]
    obtain ⟨-, -, -, -, eA, eB⟩ := idx_R4 t
    intro a
    match a with
    | ⟨0, _⟩ => show win4_2.index t 0 * 1024 ≤ (i 0).val ∧ (i 0).val < win4_2.index t 0 * 1024 + 1024; rw [eA]; omega
    | ⟨1, _⟩ => show win4_2.index t 1 * 1024 ≤ (i 1).val ∧ (i 1).val < win4_2.index t 1 * 1024 + 1024; rw [eB]; omega

end Value_R4

end Cert.KernelIdeal.Hand
end
-- ==== Proof.PipeR5.lean ====
import proofs.«140595_j18622978196102_1_alg».proof.Proof.StepCol

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Spec (stepSum runSum runSum_step)

section Data_R5

variable (V : (c : Dev nD) → (b : Ref sig .tc) → Buf (Elt F) ((c : Thread nD τ).loc b))

-- The block of operand w at point t, cut out of its array as the region finds it.
def blk_R5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xBlk_R5 (c : Dev nD) (t : Fin cfg5.N) : Vec F S1024x1024 .f32 := blk_R5 V c 0 t
abbrev wBlk_R5 (c : Dev nD) (t : Fin cfg5.N) : Vec F S1024x1024 .bf16 := blk_R5 V c 1 t

abbrev sumAfter_R5 (c : Dev nD) : (n : ℕ) → n < cfg5.N → Vec F S1024x1024 .f32 :=
  runSum (startBlock_col (F := F)) (addBlock_col (F := F)) (xBlk_R5 V c) (wBlk_R5 V c)

abbrev acc_R5 : Memref sig .tc .vmem S1024x1024 .f32 := Memref.whole cc5_scratch0

abbrev aside_R5 (c : Dev nD) : sProp 𝕄 :=
  iprop(Pipeline.scopedRestBut (Ix := Unit) (Name := ℕ) (U := UR sig nD τ) (Lvl := ℕ) (Val := Elt F) spec5 c [cc5_scratch0] ∗ ∃ r, prngReg c r)

-- What every point leaves: the input blocks as found, the output block at the finished sum where it is written, the running sum between points.
def dat_R5 (c : Dev nD) : Dat τ (Elt F) Unit ℕ (UR sig nD τ) ℕ cfg5 c where
  A w := V c (Pipeline.arrRef spec5 w)
  after w t := match w with
    | ⟨0, _⟩ => blk_R5 V c 0 t
    | ⟨1, _⟩ => blk_R5 V c 1 t
    | ⟨2, _⟩ => sumAfter_R5 V c t.val t.isLt
  Φ t := between c acc_R5 (aside_R5 c) (sumAfter_R5 V c) t.val (Nat.le_of_lt_succ t.isLt)
  q _ := fullShare
  owed _ := 0

theorem dat_R5_A (c : Dev nD) (w : Fin cfg5.W) : (dat_R5 V c).A w = V c (Pipeline.arrRef spec5 w) := by dsimp only [dat_R5]
theorem dat_R5_after0 (c : Dev nD) (t : Fin cfg5.N) : (dat_R5 V c).after 0 t = blk_R5 V c 0 t := by dsimp only [dat_R5]
theorem dat_R5_after1 (c : Dev nD) (t : Fin cfg5.N) : (dat_R5 V c).after 1 t = blk_R5 V c 1 t := by dsimp only [dat_R5]
theorem dat_R5_after2 (c : Dev nD) (t : Fin cfg5.N) : (dat_R5 V c).after 2 t = sumAfter_R5 V c t.val t.isLt := by dsimp only [dat_R5]

theorem dat_R5_before0 (c : Dev nD) (t : Fin cfg5.N) (d) : (dat_R5 V c).before 0 t d = blk_R5 V c 0 t :=
  ((dat_R5 V c).before_in_eq_fetched 0 rfl (fun _ => rfl) (fun _ _ _ => rfl)
    (fun t => by rw [dat_R5_after0]; unfold Dat.blockOf blk_R5; rw [dat_R5_A]; try rfl) t d).trans
    (by unfold Dat.fetched Dat.blockOf blk_R5; rw [dat_R5_A]; try rfl)
theorem dat_R5_before1 (c : Dev nD) (t : Fin cfg5.N) (d) : (dat_R5 V c).before 1 t d = blk_R5 V c 1 t :=
  ((dat_R5 V c).before_in_eq_fetched 1 rfl (fun _ => rfl) (fun _ _ _ => rfl)
    (fun t => by rw [dat_R5_after1]; unfold Dat.blockOf blk_R5; rw [dat_R5_A]; try rfl) t d).trans
    (by unfold Dat.fetched Dat.blockOf blk_R5; rw [dat_R5_A]; try rfl)

theorem live_R5_0 : ∀ t : Fin cfg5.N, cfg5.idle 0 (grid5.coords t) = false := by decide +kernel
theorem live_R5_1 : ∀ t : Fin cfg5.N, cfg5.idle 1 (grid5.coords t) = false := by decide +kernel
theorem idle_R5_2 : ∀ t : Fin cfg5.N, ¬t.val % 4 = 3 → cfg5.idle 2 (grid5.coords t) = true := by decide +kernel
theorem noFlush_R5_2 : ∀ t : Fin cfg5.N, ¬t.val % 4 = 3 → (cfg5.win 2).flush t = false := by decide +kernel
theorem live_R5_2 : ∀ t : Fin cfg5.N, t.val % 4 = 3 → cfg5.idle 2 (grid5.coords t) = false := by decide +kernel

end Data_R5

section Obligation_R5

variable (V : (c : Dev nD) → (b : Ref sig .tc) → Buf (Elt F) ((c : Thread nD τ).loc b))

def handed_R5 (c : Dev nD) (t : Fin cfg5.N) : sProp 𝕄 :=
  iprop((dat_R5 V c).Φ t.castSucc ∗ (dat_R5 V c).owesAt () t.castSucc
    ∗ (∃ d, owns (c : Thread nD τ) (st5_0 t) fullShare ((dat_R5 V c).before 0 t d))
    ∗ (∃ d, owns (c : Thread nD τ) (st5_1 t) fullShare ((dat_R5 V c).before 1 t d))
    ∗ (∃ d, owns (c : Thread nD τ) (st5_2 t) fullShare ((dat_R5 V c).before 2 t d)))

def returned_R5 (c : Dev nD) (t : Fin cfg5.N) : sProp 𝕄 :=
  iprop((dat_R5 V c).Φ t.succ ∗ (dat_R5 V c).owesAt () t.succ
    ∗ (dat_R5 V c).leavesExact 0 t ∗ (dat_R5 V c).leavesExact 1 t ∗ (dat_R5 V c).leavesExact 2 t)

theorem leaves_R5_0 (c : Dev nD) (t : Fin cfg5.N) :
    (dat_R5 V c).leavesExact 0 t = owns (c : Thread nD τ) (st5_0 t) fullShare (blk_R5 V c 0 t) := by
  unfold Dat.leavesExact; rw [live_R5_0 t, dat_R5_after0]
theorem leaves_R5_1 (c : Dev nD) (t : Fin cfg5.N) :
    (dat_R5 V c).leavesExact 1 t = owns (c : Thread nD τ) (st5_1 t) fullShare (blk_R5 V c 1 t) := by
  unfold Dat.leavesExact; rw [live_R5_1 t, dat_R5_after1]

-- The output block after the point: the finished sum where the point ends a run, else as found.
theorem leaves_R5_2 (c : Dev nD) (t : Fin cfg5.N) (d) :
    owns (c : Thread nD τ) (st5_2 t) fullShare (if t.val % 4 = 3 then (stepSum (startBlock_col (F := F)) (addBlock_col (F := F)) t.val (xBlk_R5 V c t) (wBlk_R5 V c t) (sumAfter_R5 V c (t.val - 1) (Nat.lt_of_le_of_lt (Nat.sub_le _ _) t.isLt))) else (dat_R5 V c).before 2 t d)
      ⊢ (dat_R5 V c).leavesExact 2 t := by
  rw [← runSum_step]
  by_cases h3 : t.val % 4 = 3
  · rw [if_pos h3, show (dat_R5 V c).leavesExact 2 t = owns (c : Thread nD τ) (st5_2 t) fullShare ((dat_R5 V c).after 2 t) from by
      unfold Dat.leavesExact; rw [live_R5_2 t h3], dat_R5_after2]
  · rw [if_neg h3, Dat.leavesExact_idle (dat_R5 V c) 2 t (idle_R5_2 t h3) (noFlush_R5_2 t h3)]
    iintro H; iexists _; iexact H

set_option maxHeartbeats 2000000 in
theorem point_R5 (c : Dev nD) (t : Fin cfg5.N) :
    handed_R5 V c t ⊢ wp frame (wpE (defs₀ (F := F)) Variants.none c none) Set.univ (bodyAt5 t) (fun _ => returned_R5 V c t) := by
  unfold handed_R5 returned_R5 bodyAt5
  simp only [dat_R5_before0, dat_R5_before1, leaves_R5_0, leaves_R5_1]
  exact point_col (body := cc5_matmul_atb_kernel) rfl c (grid5.coords t) t.val (firstK_col_iff t) (lastK_col_iff t) _ _ _ _ _ _ _ _
    (xBlk_R5 V c t) (wBlk_R5 V c t) (sumAfter_R5 V c (t.val - 1) (Nat.lt_of_le_of_lt (Nat.sub_le _ _) t.isLt))
    (fun d => (dat_R5 V c).before 2 t d) _ _ _ _ (aside_R5 c)
    (between_found c acc_R5 (aside_R5 c) (sumAfter_R5 V c) t)
    (between_left c acc_R5 (aside_R5 c) (sumAfter_R5 V c) t _ (runSum_step _ _ _ _ t))
    (fun d => leaves_R5_2 V c t d)

theorem body_R5 (c : Dev nD) : BodyObligation (dat_R5 (F := F) V c) (defs₀ (F := F)) Variants.none () Set.univ := fun t => by
  rw [bigSep_W5, bigSep_W5]
  exact point_R5 V c t

end Obligation_R5

end Cert.KernelIdeal.Hand
end
-- ==== Proof.ValueR5.lean ====
import proofs.«140595_j18622978196102_1_alg».proof.Proof.PipeR5
import proofs.«140595_j18622978196102_1_alg».proof.Proof.ValueCol

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem idx_R5 : ∀ t : Fin cfg5.N,
    win5_0.index t (0 : Fin 2) = t.val % 4 ∧ win5_0.index t (1 : Fin 2) = t.val / 16
    ∧ win5_1.index t (0 : Fin 2) = t.val % 4 ∧ win5_1.index t (1 : Fin 2) = t.val / 4 % 4
    ∧ win5_2.index t (0 : Fin 2) = t.val / 16 ∧ win5_2.index t (1 : Fin 2) = t.val / 4 % 4 :=
  (by decide +kernel : ∀ t : Fin grid5.N, _)

section Blocks_R5

variable (V : (c : Dev nD) → (b : Ref sig .tc) → Buf (Elt Ideal) ((c : Thread nD τ).loc b))

theorem xBlkAt_R5 (c : Dev nD) (t : Fin cfg5.N) (y : S1024x1024.Idx) (k : S4096x4096.Idx)
    (hk0 : (k 0).val = t.val % 4 * 1024 + (y 0).val) (hk1 : (k 1).val = t.val / 16 * 1024 + (y 1).val) :
    xBlk_R5 V c t y = V c (Pipeline.arrRef spec5 0) k := by
  obtain ⟨eA, eB, -⟩ := idx_R5 t
  show blk_R5 V c 0 t y = _
  unfold blk_R5
  rw [View.read_apply]
  show V c (Pipeline.arrRef spec5 0) _ = V c (Pipeline.arrRef spec5 0) k
  congr 1
  funext a
  apply Fin.ext
  match a with
  | ⟨0, _⟩ => show win5_0.index t 0 * 1024 + 1 * (y 0).val = (k 0).val; rw [eA, hk0]; omega
  | ⟨1, _⟩ => show win5_0.index t 1 * 1024 + 1 * (y 1).val = (k 1).val; rw [eB, hk1]; omega

theorem wBlkAt_R5 (c : Dev nD) (t : Fin cfg5.N) (y : S1024x1024.Idx) (k : S4096x4096.Idx)
    (hk0 : (k 0).val = t.val % 4 * 1024 + (y 0).val) (hk1 : (k 1).val = t.val / 4 % 4 * 1024 + (y 1).val) :
    wBlk_R5 V c t y = V c (Pipeline.arrRef spec5 1) k := by
  obtain ⟨-, -, eA, eB, -⟩ := idx_R5 t
  show blk_R5 V c 1 t y = _
  unfold blk_R5
  rw [View.read_apply]
  show V c (Pipeline.arrRef spec5 1) _ = V c (Pipeline.arrRef spec5 1) k
  congr 1
  funext a
  apply Fin.ext
  match a with
  | ⟨0, _⟩ => show win5_1.index t 0 * 1024 + 1 * (y 0).val = (k 0).val; rw [eA, hk0]; omega
  | ⟨1, _⟩ => show win5_1.index t 1 * 1024 + 1 * (y 1).val = (k 1).val; rw [eB, hk1]; omega

end Blocks_R5

section Value_R5

variable (V : (c : Dev nD) → (b : Ref sig .tc) → Buf (Elt Ideal) ((c : Thread nD τ).loc b))

theorem flushed_R5 (c : Dev nD) (t : Fin cfg5.N) (hf : (cfg5.win 2).flush t = true) :
    (dat_R5 V c).flushed 2 t
      = ((cfg5.win 2).blk t).view.read (Elt Ideal) (Cert.Spec.colDot (V c (Pipeline.arrRef spec5 0)) (V c (Pipeline.arrRef spec5 1))) := by
  have ht : t.val % 4 = 3 := (flush5_2 t).mp hf
  obtain ⟨-, -, -, -, eA, eB⟩ := idx_R5 t
  show (cfg5.win 2).cut (grid5.coords t) ((dat_R5 V c).after 2 t) = _
  rw [dat_R5_after2]
  funext y
  show sumAfter_R5 V c t.val t.isLt _ = Cert.Spec.colDot (V c (Pipeline.arrRef spec5 0)) (V c (Pipeline.arrRef spec5 1)) (((cfg5.win 2).blk t).view.emb y)
  refine lastSum_col _ _ _ _ (xBlkAt_R5 V c) (wBlkAt_R5 V c) t ht _ _ ?_ ?_
  · show win5_2.index t 0 * 1024 + 1 * (y 0).val = t.val / 16 * 1024 + (y 0).val; rw [eA]; omega
  · show win5_2.index t 1 * 1024 + 1 * (y 1).val = t.val / 4 % 4 * 1024 + (y 1).val; rw [eB]; omega

theorem memBlk_R5 (t : Fin cfg5.N) (i : S4096x4096.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole (Pipeline.arrRef spec5 2)).slice (win5_2.rect t)).set ↔ _
  rw [View.set_slice_whole, Rect.mem_set_unit]
  exact Iff.rfl

theorem out_R5 (c : Dev nD) :
    (dat_R5 (F := Ideal) V c).arrAt 2 cfg5.N
      = Cert.Spec.colDot (V c (Pipeline.arrRef spec5 0)) (V c (Pipeline.arrRef spec5 1)) :=
  (dat_R5 V c).arrAt_eq_of_cover 2 _ (fun t hf => flushed_R5 V c t hf) fun i => by
    have hi0 : (i 0).val < 4096 := (i 0).isLt
    have hi1 : (i 1).val < 4096 := (i 1).isLt
    have hN : cfg5.N = 64 := N_5
    obtain ⟨t, htv⟩ : ∃ t : Fin cfg5.N, t.val = 16 * ((i 0).val / 1024) + 4 * ((i 1).val / 1024) + 3 := ⟨⟨_, by omega⟩, rfl⟩
    refine ⟨t, (flush5_2 t).mpr (by omega), ?_⟩
    rw [memBlk_R5]
    obtain ⟨-, -, -, -, eA, eB⟩ := idx_R5 t
    intro a
    match a with
    | ⟨0, _⟩ => show win5_2.index t 0 * 1024 ≤ (i 0).val ∧ (i 0).val < win5_2.index t 0 * 1024 + 1024; rw [eA]; omega
    | ⟨1, _⟩ => show win5_2.index t 1 * 1024 ≤ (i 1).val ∧ (i 1).val < win5_2.index t 1 * 1024 + 1024; rw [eB]; omega

end Value_R5

end Cert.KernelIdeal.Hand
end
-- ==== Proof.Bounds.lean ====
import proofs.«140595_j18622978196102_1_alg».proof.Proof.PipeR0
import proofs.«140595_j18622978196102_1_alg».proof.Proof.PipeR1
import proofs.«140595_j18622978196102_1_alg».proof.Proof.PipeR2
import proofs.«140595_j18622978196102_1_alg».proof.Proof.PipeR3
import proofs.«140595_j18622978196102_1_alg».proof.Proof.PipeR4
import proofs.«140595_j18622978196102_1_alg».proof.Proof.PipeR5
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev at0 (c : Dev nD) : Valuation τ sig (Elt F) := fun b => m (c, b)
abbrev atIn_R0 : (c : Dev nD) → (b : Ref sig .tc) → Buf (Elt F) ((c : Thread nD τ).loc b) := fun c b => at0 m c b
def at1 (c : Dev nD) : Valuation τ sig (Elt F) :=
  Pipeline.withArrays spec0 c (at0 m c) fun w => (dat_R0 (atIn_R0 m) c).arrAt w cfg0.N
abbrev atIn_R1 : (c : Dev nD) → (b : Ref sig .tc) → Buf (Elt F) ((c : Thread nD τ).loc b) := fun c b => at1 m c b
def at2 (c : Dev nD) : Valuation τ sig (Elt F) :=
  Pipeline.withArrays spec1 c (at1 m c) fun w => (dat_R1 (atIn_R1 m) c).arrAt w cfg1.N
abbrev atIn_R2 : (c : Dev nD) → (b : Ref sig .tc) → Buf (Elt F) ((c : Thread nD τ).loc b) := fun c b => at2 m c b
def at3 (c : Dev nD) : Valuation τ sig (Elt F) :=
  Pipeline.withArrays spec2 c (at2 m c) fun w => (dat_R2 (atIn_R2 m) c).arrAt w cfg2.N
abbrev atIn_R3 : (c : Dev nD) → (b : Ref sig .tc) → Buf (Elt F) ((c : Thread nD τ).loc b) := fun c b => at3 m c b
def at4 (c : Dev nD) : Valuation τ sig (Elt F) :=
  Pipeline.withArrays spec3 c (at3 m c) fun w => (dat_R3 (atIn_R3 m) c).arrAt w cfg3.N
abbrev atIn_R4 : (c : Dev nD) → (b : Ref sig .tc) → Buf (Elt F) ((c : Thread nD τ).loc b) := fun c b => at4 m c b
def at5 (c : Dev nD) : Valuation τ sig (Elt F) :=
  Pipeline.withArrays spec4 c (at4 m c) fun w => (dat_R4 (atIn_R4 m) c).arrAt w cfg4.N
abbrev atIn_R5 : (c : Dev nD) → (b : Ref sig .tc) → Buf (Elt F) ((c : Thread nD τ).loc b) := fun c b => at5 m c b
def at6 (c : Dev nD) : Valuation τ sig (Elt F) :=
  Pipeline.withArrays spec5 c (at5 m c) fun w => (dat_R5 (atIn_R5 m) c).arrAt w cfg5.N
abbrev at7 (c : Dev nD) : Valuation τ sig (Elt F) := StableHlo.after hostOps6 (at6 m c)

abbrev atEntry_R0 := at0 m
abbrev atExit_R0 := at1 m
abbrev atEntry_R1 := at1 m
abbrev atExit_R1 := at2 m
abbrev atEntry_R2 := at2 m
abbrev atExit_R2 := at3 m
abbrev atEntry_R3 := at3 m
abbrev atExit_R3 := at4 m
abbrev atEntry_R4 := at4 m
abbrev atExit_R4 := at5 m
abbrev atEntry_R5 := at5 m
abbrev atExit_R5 := at6 m

theorem atExit_R0_arr (c : Dev nD) (w : Fin cfg0.W) :
    atExit_R0 m c (Proc.devRef .tc (Pipeline.arrRef spec0 w)) = (dat_R0 (atIn_R0 m) c).arrAt w cfg0.N := by
  show at1 m c (Proc.devRef .tc (Pipeline.arrRef spec0 w)) = _
  unfold at1; exact Pipeline.withArrays_arr spec0 launch0.win.arr_inj c _ _ w
theorem atExit_R0_of_ne (c : Dev nD) (b : Ref sig .tc) (hb : ∀ w, Pipeline.arrRef spec0 w ≠ b) :
    atExit_R0 m c (Proc.devRef .tc b) = atEntry_R0 m c (Proc.devRef .tc b) := by
  show at1 m c (Proc.devRef .tc b) = at0 m c (Proc.devRef .tc b)
  unfold at1; exact Pipeline.withArrays_of_ne spec0 c _ _ b hb

theorem atExit_R1_arr (c : Dev nD) (w : Fin cfg1.W) :
    atExit_R1 m c (Proc.devRef .tc (Pipeline.arrRef spec1 w)) = (dat_R1 (atIn_R1 m) c).arrAt w cfg1.N := by
  show at2 m c (Proc.devRef .tc (Pipeline.arrRef spec1 w)) = _
  unfold at2; exact Pipeline.withArrays_arr spec1 launch1.win.arr_inj c _ _ w
theorem atExit_R1_of_ne (c : Dev nD) (b : Ref sig .tc) (hb : ∀ w, Pipeline.arrRef spec1 w ≠ b) :
    atExit_R1 m c (Proc.devRef .tc b) = atEntry_R1 m c (Proc.devRef .tc b) := by
  show at2 m c (Proc.devRef .tc b) = at1 m c (Proc.devRef .tc b)
  unfold at2; exact Pipeline.withArrays_of_ne spec1 c _ _ b hb

theorem atExit_R2_arr (c : Dev nD) (w : Fin cfg2.W) :
    atExit_R2 m c (Proc.devRef .tc (Pipeline.arrRef spec2 w)) = (dat_R2 (atIn_R2 m) c).arrAt w cfg2.N := by
  show at3 m c (Proc.devRef .tc (Pipeline.arrRef spec2 w)) = _
  unfold at3; exact Pipeline.withArrays_arr spec2 launch2.win.arr_inj c _ _ w
theorem atExit_R2_of_ne (c : Dev nD) (b : Ref sig .tc) (hb : ∀ w, Pipeline.arrRef spec2 w ≠ b) :
    atExit_R2 m c (Proc.devRef .tc b) = atEntry_R2 m c (Proc.devRef .tc b) := by
  show at3 m c (Proc.devRef .tc b) = at2 m c (Proc.devRef .tc b)
  unfold at3; exact Pipeline.withArrays_of_ne spec2 c _ _ b hb

theorem atExit_R3_arr (c : Dev nD) (w : Fin cfg3.W) :
    atExit_R3 m c (Proc.devRef .tc (Pipeline.arrRef spec3 w)) = (dat_R3 (atIn_R3 m) c).arrAt w cfg3.N := by
  show at4 m c (Proc.devRef .tc (Pipeline.arrRef spec3 w)) = _
  unfold at4; exact Pipeline.withArrays_arr spec3 launch3.win.arr_inj c _ _ w
theorem atExit_R3_of_ne (c : Dev nD) (b : Ref sig .tc) (hb : ∀ w, Pipeline.arrRef spec3 w ≠ b) :
    atExit_R3 m c (Proc.devRef .tc b) = atEntry_R3 m c (Proc.devRef .tc b) := by
  show at4 m c (Proc.devRef .tc b) = at3 m c (Proc.devRef .tc b)
  unfold at4; exact Pipeline.withArrays_of_ne spec3 c _ _ b hb

theorem atExit_R4_arr (c : Dev nD) (w : Fin cfg4.W) :
    atExit_R4 m c (Proc.devRef .tc (Pipeline.arrRef spec4 w)) = (dat_R4 (atIn_R4 m) c).arrAt w cfg4.N := by
  show at5 m c (Proc.devRef .tc (Pipeline.arrRef spec4 w)) = _
  unfold at5; exact Pipeline.withArrays_arr spec4 launch4.win.arr_inj c _ _ w
theorem atExit_R4_of_ne (c : Dev nD) (b : Ref sig .tc) (hb : ∀ w, Pipeline.arrRef spec4 w ≠ b) :
    atExit_R4 m c (Proc.devRef .tc b) = atEntry_R4 m c (Proc.devRef .tc b) := by
  show at5 m c (Proc.devRef .tc b) = at4 m c (Proc.devRef .tc b)
  unfold at5; exact Pipeline.withArrays_of_ne spec4 c _ _ b hb

theorem atExit_R5_arr (c : Dev nD) (w : Fin cfg5.W) :
    atExit_R5 m c (Proc.devRef .tc (Pipeline.arrRef spec5 w)) = (dat_R5 (atIn_R5 m) c).arrAt w cfg5.N := by
  show at6 m c (Proc.devRef .tc (Pipeline.arrRef spec5 w)) = _
  unfold at6; exact Pipeline.withArrays_arr spec5 launch5.win.arr_inj c _ _ w
theorem atExit_R5_of_ne (c : Dev nD) (b : Ref sig .tc) (hb : ∀ w, Pipeline.arrRef spec5 w ≠ b) :
    atExit_R5 m c (Proc.devRef .tc b) = atEntry_R5 m c (Proc.devRef .tc b) := by
  show at6 m c (Proc.devRef .tc b) = at5 m c (Proc.devRef .tc b)
  unfold at6; exact Pipeline.withArrays_of_ne spec5 c _ _ b hb

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat_R0 (atIn_R0 m) c
  | ⟨1, _⟩ => fun c => dat_R1 (atIn_R1 m) c
  | ⟨2, _⟩ => fun c => dat_R2 (atIn_R2 m) c
  | ⟨3, _⟩ => fun c => dat_R3 (atIn_R3 m) c
  | ⟨4, _⟩ => fun c => dat_R4 (atIn_R4 m) c
  | ⟨5, _⟩ => fun c => dat_R5 (atIn_R5 m) c

abbrev 𝒱₀ : Variants := Variants.none
abbrev L : GSem nD τ sig → Finset Unit := fun _ => ∅
abbrev lv : GSem nD τ sig → Unit → ℕ := fun _ _ => 0
abbrev riding (c : Dev nD) : sProp 𝕄 := iprop((∃ r, prngReg c r) ∗ ∃ W, owes (c : Thread nD τ) (0 : CellTallies nD τ sig Unit) W)

abbrev state (B : Dev nD → Valuation τ sig (Elt F)) (c : Dev nD) : sProp 𝕄 :=
  iprop(StableHlo.held (c : Thread nD τ) (Pipeline.ucRefs τ sig) (B c) ∗ riding (F := F) c)

-- A region as an item of @main, built from what varies between regions: it changes its output array and nothing else.
set_option backward.isDefEq.respectTransparency.types false in
def segOf (p : Fin 6) (launch : Pipeline.LaunchFacts (nD := nD) (τ := τ) cfgs p) (Vin Vout : Dev nD → Valuation τ sig (Elt F))
    (hbody : ∀ c, BodyObligation (pdats m p c) (defs₀ (F := F)) Variants.none () Set.univ)
    (hshare : ∀ c w, (pdats m p c).share w = fullShare)
    (hA : ∀ c w, (pdats m p c).A w = Vin c (Pipeline.arrRef (Pipeline.pin (pcfgs (F := F)) adm p).spec w))
    (howed : ∀ c t, (pdats m p c).owed t = 0) (hrec : ∀ c t, (pdats m p c).recorded t = Set.univ)
    (henter : ∀ c, iprop((∃ r, prngReg c r) ∗ Pipeline.scopedRest (Ix := Unit) (Name := ℕ) (U := UR sig nD τ) (Lvl := ℕ) (Val := Elt F) (pcfgs (F := F) p).spec c)
      ⊢ (pdats m p c).Φ 0)
    (hleave : ∀ c, (pdats m p c).Φ (Fin.last _)
      ⊢ iprop((∃ r, prngReg c r) ∗ Pipeline.scopedRest (Ix := Unit) (Name := ℕ) (U := UR sig nD τ) (Lvl := ℕ) (Val := Elt F) (pcfgs (F := F) p).spec c))
    (hArr : ∀ c w, (pdats m p c).arrAt w (Pipeline.pin (pcfgs (F := F)) adm p).N = Vout c (Pipeline.arrRef (Pipeline.pin (pcfgs (F := F)) adm p).spec w))
    (hRest : ∀ c (b : Ref sig .tc), b ∉ Finset.univ.image (Pipeline.arrRef (Pipeline.pin (pcfgs (F := F)) adm p).spec) → Vout c b = Vin c b) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := state Vin c
  post c := state Vout c
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Vin c b)
  hentry c := by
    rw [Pipeline.ownSems0_none]
    have hsplit := Pipeline.arrays_of_unscopedBufs (p := p) (pcfgs (F := F)) adm (pdats m) launch.win launch.arr_whole c
      (hshare c) (fun b => Vin c b) (hA c)
    rw [Pipeline.unscopedBufs_held] at hsplit
    iintro ⟨⟨Hheld, Hp, Hown⟩, -, -⟩
    ihave H := hsplit $$ Hheld
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hown]
    · unfold Pipeline.Dat.owesAt Pipeline.owesWithin
      rw [howed c 0]
      icases Hown with ⟨%W, Hown⟩; iexists W; isplitr; · ipureintro; exact fun _ _ => Or.inl ((hrec c 0).symm ▸ Set.mem_univ _)
      iexact Hown
    isplitl [Hp]; · iexact Hp
    iexact Hrest
  hin c := by
    iintro ⟨Hp, -, Hr⟩
    iapply (henter c)
    isplitl [Hp]; · iexact Hp
    iexact Hr
  hout c := by
    rw [Pipeline.ownSems0_none]
    iintro H
    ihave H' := (hleave c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hshare c)
      (fun b => Vin c b) (fun b => Vout c b) ((pdats m p c).arrAt · (Pipeline.pin (pcfgs (F := F)) adm p).N) (hArr c) (hRest c)
    rw [Pipeline.unscopedBufs_held] at hjoin
    iintro ⟨Harr, Hown, Hp, Hrest⟩
    imodintro
    isplitl [Harr Hrest]
    · iapply hjoin; isplitl [Harr] <;> iassumption
    isplitl [Hp]; · iexact Hp
    unfold Pipeline.Dat.owesAt Pipeline.owesWithin
    rw [howed c (Fin.last (Pipeline.pin (pcfgs (F := F)) adm p).N)]
    icases Hown with ⟨%W, -, Hown⟩; iexists W; iexact Hown

end Cert.KernelIdeal.Hand
end
-- ==== Proof.SegR0.lean ====
import proofs.«140595_j18622978196102_1_alg».proof.Proof.Bounds

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R0 : (c : Dev nD) → (b : Ref sig .tc) → Buf (Elt F) ((c : Thread nD τ).loc b) := fun c b => atExit_R0 m c b

theorem exitArr_R0 (c : Dev nD) (w : Fin cfg0.W) :
    (dat_R0 (atIn_R0 m) c).arrAt w cfg0.N = atOut_R0 m c (Pipeline.arrRef spec0 w) := (atExit_R0_arr m c w).symm
theorem exitRest_R0 (c : Dev nD) : ∀ b, b ∉ Finset.univ.image (Pipeline.arrRef spec0) → atOut_R0 m c b = atIn_R0 m c b :=
  fun b hb => atExit_R0_of_ne m c b fun w e => hb (Finset.mem_image.mpr ⟨w, Finset.mem_univ _, e⟩)

-- Every array but the region's output is, after the region, as before it: an input array is only read, any other is not touched.
theorem kept_R0 (c : Dev nD) (b : Ref sig .tc) (hb : Pipeline.arrRef spec0 2 ≠ b) : atOut_R0 m c b = atIn_R0 m c b := by
  by_cases h0 : Pipeline.arrRef spec0 0 = b
  · subst h0
    exact (atExit_R0_arr m c 0).trans (((dat_R0 (atIn_R0 m) c).arrAt_in 0 rfl _).trans (dat_R0_A (atIn_R0 m) c 0))
  by_cases h1 : Pipeline.arrRef spec0 1 = b
  · subst h1
    exact (atExit_R0_arr m c 1).trans (((dat_R0 (atIn_R0 m) c).arrAt_in 1 rfl _).trans (dat_R0_A (atIn_R0 m) c 1))
  exact atExit_R0_of_ne m c b fun w => match w with | ⟨0, _⟩ => h0 | ⟨1, _⟩ => h1 | ⟨2, _⟩ => hb

theorem made_R0 (c : Dev nD) : atOut_R0 m c (Pipeline.arrRef spec0 2) = (dat_R0 (atIn_R0 m) c).arrAt 2 cfg0.N :=
  atExit_R0_arr m c 2

theorem rest_R0 (c : Dev nD) :
    (Pipeline.scopedRest (Ix := Unit) (Name := ℕ) (U := UR sig nD τ) (Lvl := ℕ) (Val := Elt F) spec0 c : sProp 𝕄)
      = iprop((∃ d, owns (c : Thread nD τ) acc_R0 fullShare d)
          ∗ Pipeline.scopedRestBut (Ix := Unit) (Name := ℕ) (U := UR sig nD τ) (Lvl := ℕ) (Val := Elt F) spec0 c [cc0_scratch0]) := by
  rw [scopedRest0_split]
  simp only [acc_R0, owns_whole]
  rfl

set_option backward.isDefEq.respectTransparency.types false in
def seg_R0 : Pipeline.RegionSeg (pcfgs (F := F)) adm (pdats m) () defs₀ 𝒱₀ L lv (0 : Fin 6) :=
  segOf m (0 : Fin 6) launch0 (atEntry_R0 m) (atExit_R0 m) (fun c => body_R0 (atIn_R0 m) c)
    (fun c => (pdats m (0 : Fin 6) c).share_full fun _ => rfl) (fun _ _ => rfl) (fun _ _ => rfl) (fun _ _ => rfl)
    (fun c => between_enter c acc_R0 _ _ (rest_R0 c) (sumAfter_R0 (atIn_R0 m) c))
    (fun c => between_leave c acc_R0 _ _ (rest_R0 c) (sumAfter_R0 (atIn_R0 m) c) (Fin.last cfg0.N).val (Nat.le_of_lt_succ (Fin.last cfg0.N).isLt))
    (exitArr_R0 m) (exitRest_R0 m)

end Cert.KernelIdeal.Hand
end
-- ==== Proof.SegR1.lean ====
import proofs.«140595_j18622978196102_1_alg».proof.Proof.Bounds

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R1 : (c : Dev nD) → (b : Ref sig .tc) → Buf (Elt F) ((c : Thread nD τ).loc b) := fun c b => atExit_R1 m c b

theorem exitArr_R1 (c : Dev nD) (w : Fin cfg1.W) :
    (dat_R1 (atIn_R1 m) c).arrAt w cfg1.N = atOut_R1 m c (Pipeline.arrRef spec1 w) := (atExit_R1_arr m c w).symm
theorem exitRest_R1 (c : Dev nD) : ∀ b, b ∉ Finset.univ.image (Pipeline.arrRef spec1) → atOut_R1 m c b = atIn_R1 m c b :=
  fun b hb => atExit_R1_of_ne m c b fun w e => hb (Finset.mem_image.mpr ⟨w, Finset.mem_univ _, e⟩)

-- Every array but the region's output is, after the region, as before it: an input array is only read, any other is not touched.
theorem kept_R1 (c : Dev nD) (b : Ref sig .tc) (hb : Pipeline.arrRef spec1 2 ≠ b) : atOut_R1 m c b = atIn_R1 m c b := by
  by_cases h0 : Pipeline.arrRef spec1 0 = b
  · subst h0
    exact (atExit_R1_arr m c 0).trans (((dat_R1 (atIn_R1 m) c).arrAt_in 0 rfl _).trans (dat_R1_A (atIn_R1 m) c 0))
  by_cases h1 : Pipeline.arrRef spec1 1 = b
  · subst h1
    exact (atExit_R1_arr m c 1).trans (((dat_R1 (atIn_R1 m) c).arrAt_in 1 rfl _).trans (dat_R1_A (atIn_R1 m) c 1))
  exact atExit_R1_of_ne m c b fun w => match w with | ⟨0, _⟩ => h0 | ⟨1, _⟩ => h1 | ⟨2, _⟩ => hb

theorem made_R1 (c : Dev nD) : atOut_R1 m c (Pipeline.arrRef spec1 2) = (dat_R1 (atIn_R1 m) c).arrAt 2 cfg1.N :=
  atExit_R1_arr m c 2

theorem rest_R1 (c : Dev nD) :
    (Pipeline.scopedRest (Ix := Unit) (Name := ℕ) (U := UR sig nD τ) (Lvl := ℕ) (Val := Elt F) spec1 c : sProp 𝕄)
      = iprop((∃ d, owns (c : Thread nD τ) acc_R1 fullShare d)
          ∗ Pipeline.scopedRestBut (Ix := Unit) (Name := ℕ) (U := UR sig nD τ) (Lvl := ℕ) (Val := Elt F) spec1 c [cc1_scratch0]) := by
  rw [scopedRest1_split]
  simp only [acc_R1, owns_whole]
  rfl

set_option backward.isDefEq.respectTransparency.types false in
def seg_R1 : Pipeline.RegionSeg (pcfgs (F := F)) adm (pdats m) () defs₀ 𝒱₀ L lv (1 : Fin 6) :=
  segOf m (1 : Fin 6) launch1 (atEntry_R1 m) (atExit_R1 m) (fun c => body_R1 (atIn_R1 m) c)
    (fun c => (pdats m (1 : Fin 6) c).share_full fun _ => rfl) (fun _ _ => rfl) (fun _ _ => rfl) (fun _ _ => rfl)
    (fun c => between_enter c acc_R1 _ _ (rest_R1 c) (sumAfter_R1 (atIn_R1 m) c))
    (fun c => between_leave c acc_R1 _ _ (rest_R1 c) (sumAfter_R1 (atIn_R1 m) c) (Fin.last cfg1.N).val (Nat.le_of_lt_succ (Fin.last cfg1.N).isLt))
    (exitArr_R1 m) (exitRest_R1 m)

end Cert.KernelIdeal.Hand
end
-- ==== Proof.SegR2.lean ====
import proofs.«140595_j18622978196102_1_alg».proof.Proof.Bounds

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R2 : (c : Dev nD) → (b : Ref sig .tc) → Buf (Elt F) ((c : Thread nD τ).loc b) := fun c b => atExit_R2 m c b

theorem exitArr_R2 (c : Dev nD) (w : Fin cfg2.W) :
    (dat_R2 (atIn_R2 m) c).arrAt w cfg2.N = atOut_R2 m c (Pipeline.arrRef spec2 w) := (atExit_R2_arr m c w).symm
theorem exitRest_R2 (c : Dev nD) : ∀ b, b ∉ Finset.univ.image (Pipeline.arrRef spec2) → atOut_R2 m c b = atIn_R2 m c b :=
  fun b hb => atExit_R2_of_ne m c b fun w e => hb (Finset.mem_image.mpr ⟨w, Finset.mem_univ _, e⟩)

-- Every array but the region's output is, after the region, as before it: an input array is only read, any other is not touched.
theorem kept_R2 (c : Dev nD) (b : Ref sig .tc) (hb : Pipeline.arrRef spec2 2 ≠ b) : atOut_R2 m c b = atIn_R2 m c b := by
  by_cases h0 : Pipeline.arrRef spec2 0 = b
  · subst h0
    exact (atExit_R2_arr m c 0).trans (((dat_R2 (atIn_R2 m) c).arrAt_in 0 rfl _).trans (dat_R2_A (atIn_R2 m) c 0))
  by_cases h1 : Pipeline.arrRef spec2 1 = b
  · subst h1
    exact (atExit_R2_arr m c 1).trans (((dat_R2 (atIn_R2 m) c).arrAt_in 1 rfl _).trans (dat_R2_A (atIn_R2 m) c 1))
  exact atExit_R2_of_ne m c b fun w => match w with | ⟨0, _⟩ => h0 | ⟨1, _⟩ => h1 | ⟨2, _⟩ => hb

theorem made_R2 (c : Dev nD) : atOut_R2 m c (Pipeline.arrRef spec2 2) = (dat_R2 (atIn_R2 m) c).arrAt 2 cfg2.N :=
  atExit_R2_arr m c 2

theorem rest_R2 (c : Dev nD) :
    (Pipeline.scopedRest (Ix := Unit) (Name := ℕ) (U := UR sig nD τ) (Lvl := ℕ) (Val := Elt F) spec2 c : sProp 𝕄)
      = iprop((∃ d, owns (c : Thread nD τ) acc_R2 fullShare d)
          ∗ Pipeline.scopedRestBut (Ix := Unit) (Name := ℕ) (U := UR sig nD τ) (Lvl := ℕ) (Val := Elt F) spec2 c [cc2_scratch0]) := by
  rw [scopedRest2_split]
  simp only [acc_R2, owns_whole]
  rfl

set_option backward.isDefEq.respectTransparency.types false in
def seg_R2 : Pipeline.RegionSeg (pcfgs (F := F)) adm (pdats m) () defs₀ 𝒱₀ L lv (2 : Fin 6) :=
  segOf m (2 : Fin 6) launch2 (atEntry_R2 m) (atExit_R2 m) (fun c => body_R2 (atIn_R2 m) c)
    (fun c => (pdats m (2 : Fin 6) c).share_full fun _ => rfl) (fun _ _ => rfl) (fun _ _ => rfl) (fun _ _ => rfl)
    (fun c => between_enter c acc_R2 _ _ (rest_R2 c) (sumAfter_R2 (atIn_R2 m) c))
    (fun c => between_leave c acc_R2 _ _ (rest_R2 c) (sumAfter_R2 (atIn_R2 m) c) (Fin.last cfg2.N).val (Nat.le_of_lt_succ (Fin.last cfg2.N).isLt))
    (exitArr_R2 m) (exitRest_R2 m)

end Cert.KernelIdeal.Hand
end
-- ==== Proof.SegR3.lean ====
import proofs.«140595_j18622978196102_1_alg».proof.Proof.Bounds

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R3 : (c : Dev nD) → (b : Ref sig .tc) → Buf (Elt F) ((c : Thread nD τ).loc b) := fun c b => atExit_R3 m c b

theorem exitArr_R3 (c : Dev nD) (w : Fin cfg3.W) :
    (dat_R3 (atIn_R3 m) c).arrAt w cfg3.N = atOut_R3 m c (Pipeline.arrRef spec3 w) := (atExit_R3_arr m c w).symm
theorem exitRest_R3 (c : Dev nD) : ∀ b, b ∉ Finset.univ.image (Pipeline.arrRef spec3) → atOut_R3 m c b = atIn_R3 m c b :=
  fun b hb => atExit_R3_of_ne m c b fun w e => hb (Finset.mem_image.mpr ⟨w, Finset.mem_univ _, e⟩)

-- Every array but the region's output is, after the region, as before it: an input array is only read, any other is not touched.
theorem kept_R3 (c : Dev nD) (b : Ref sig .tc) (hb : Pipeline.arrRef spec3 2 ≠ b) : atOut_R3 m c b = atIn_R3 m c b := by
  by_cases h0 : Pipeline.arrRef spec3 0 = b
  · subst h0
    exact (atExit_R3_arr m c 0).trans (((dat_R3 (atIn_R3 m) c).arrAt_in 0 rfl _).trans (dat_R3_A (atIn_R3 m) c 0))
  by_cases h1 : Pipeline.arrRef spec3 1 = b
  · subst h1
    exact (atExit_R3_arr m c 1).trans (((dat_R3 (atIn_R3 m) c).arrAt_in 1 rfl _).trans (dat_R3_A (atIn_R3 m) c 1))
  exact atExit_R3_of_ne m c b fun w => match w with | ⟨0, _⟩ => h0 | ⟨1, _⟩ => h1 | ⟨2, _⟩ => hb

theorem made_R3 (c : Dev nD) : atOut_R3 m c (Pipeline.arrRef spec3 2) = (dat_R3 (atIn_R3 m) c).arrAt 2 cfg3.N :=
  atExit_R3_arr m c 2

theorem rest_R3 (c : Dev nD) :
    (Pipeline.scopedRest (Ix := Unit) (Name := ℕ) (U := UR sig nD τ) (Lvl := ℕ) (Val := Elt F) spec3 c : sProp 𝕄)
      = iprop((∃ d, owns (c : Thread nD τ) acc_R3 fullShare d)
          ∗ Pipeline.scopedRestBut (Ix := Unit) (Name := ℕ) (U := UR sig nD τ) (Lvl := ℕ) (Val := Elt F) spec3 c [cc3_scratch0]) := by
  rw [scopedRest3_split]
  simp only [acc_R3, owns_whole]
  rfl

set_option backward.isDefEq.respectTransparency.types false in
def seg_R3 : Pipeline.RegionSeg (pcfgs (F := F)) adm (pdats m) () defs₀ 𝒱₀ L lv (3 : Fin 6) :=
  segOf m (3 : Fin 6) launch3 (atEntry_R3 m) (atExit_R3 m) (fun c => body_R3 (atIn_R3 m) c)
    (fun c => (pdats m (3 : Fin 6) c).share_full fun _ => rfl) (fun _ _ => rfl) (fun _ _ => rfl) (fun _ _ => rfl)
    (fun c => between_enter c acc_R3 _ _ (rest_R3 c) (sumAfter_R3 (atIn_R3 m) c))
    (fun c => between_leave c acc_R3 _ _ (rest_R3 c) (sumAfter_R3 (atIn_R3 m) c) (Fin.last cfg3.N).val (Nat.le_of_lt_succ (Fin.last cfg3.N).isLt))
    (exitArr_R3 m) (exitRest_R3 m)

end Cert.KernelIdeal.Hand
end
-- ==== Proof.SegR4.lean ====
import proofs.«140595_j18622978196102_1_alg».proof.Proof.Bounds

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R4 : (c : Dev nD) → (b : Ref sig .tc) → Buf (Elt F) ((c : Thread nD τ).loc b) := fun c b => atExit_R4 m c b

theorem exitArr_R4 (c : Dev nD) (w : Fin cfg4.W) :
    (dat_R4 (atIn_R4 m) c).arrAt w cfg4.N = atOut_R4 m c (Pipeline.arrRef spec4 w) := (atExit_R4_arr m c w).symm
theorem exitRest_R4 (c : Dev nD) : ∀ b, b ∉ Finset.univ.image (Pipeline.arrRef spec4) → atOut_R4 m c b = atIn_R4 m c b :=
  fun b hb => atExit_R4_of_ne m c b fun w e => hb (Finset.mem_image.mpr ⟨w, Finset.mem_univ _, e⟩)

-- Every array but the region's output is, after the region, as before it: an input array is only read, any other is not touched.
theorem kept_R4 (c : Dev nD) (b : Ref sig .tc) (hb : Pipeline.arrRef spec4 2 ≠ b) : atOut_R4 m c b = atIn_R4 m c b := by
  by_cases h0 : Pipeline.arrRef spec4 0 = b
  · subst h0
    exact (atExit_R4_arr m c 0).trans (((dat_R4 (atIn_R4 m) c).arrAt_in 0 rfl _).trans (dat_R4_A (atIn_R4 m) c 0))
  by_cases h1 : Pipeline.arrRef spec4 1 = b
  · subst h1
    exact (atExit_R4_arr m c 1).trans (((dat_R4 (atIn_R4 m) c).arrAt_in 1 rfl _).trans (dat_R4_A (atIn_R4 m) c 1))
  exact atExit_R4_of_ne m c b fun w => match w with | ⟨0, _⟩ => h0 | ⟨1, _⟩ => h1 | ⟨2, _⟩ => hb

theorem made_R4 (c : Dev nD) : atOut_R4 m c (Pipeline.arrRef spec4 2) = (dat_R4 (atIn_R4 m) c).arrAt 2 cfg4.N :=
  atExit_R4_arr m c 2

theorem rest_R4 (c : Dev nD) :
    (Pipeline.scopedRest (Ix := Unit) (Name := ℕ) (U := UR sig nD τ) (Lvl := ℕ) (Val := Elt F) spec4 c : sProp 𝕄)
      = iprop((∃ d, owns (c : Thread nD τ) acc_R4 fullShare d)
          ∗ Pipeline.scopedRestBut (Ix := Unit) (Name := ℕ) (U := UR sig nD τ) (Lvl := ℕ) (Val := Elt F) spec4 c [cc4_scratch0]) := by
  rw [scopedRest4_split]
  simp only [acc_R4, owns_whole]
  rfl

set_option backward.isDefEq.respectTransparency.types false in
def seg_R4 : Pipeline.RegionSeg (pcfgs (F := F)) adm (pdats m) () defs₀ 𝒱₀ L lv (4 : Fin 6) :=
  segOf m (4 : Fin 6) launch4 (atEntry_R4 m) (atExit_R4 m) (fun c => body_R4 (atIn_R4 m) c)
    (fun c => (pdats m (4 : Fin 6) c).share_full fun _ => rfl) (fun _ _ => rfl) (fun _ _ => rfl) (fun _ _ => rfl)
    (fun c => between_enter c acc_R4 _ _ (rest_R4 c) (sumAfter_R4 (atIn_R4 m) c))
    (fun c => between_leave c acc_R4 _ _ (rest_R4 c) (sumAfter_R4 (atIn_R4 m) c) (Fin.last cfg4.N).val (Nat.le_of_lt_succ (Fin.last cfg4.N).isLt))
    (exitArr_R4 m) (exitRest_R4 m)

end Cert.KernelIdeal.Hand
end
-- ==== Proof.SegR5.lean ====
import proofs.«140595_j18622978196102_1_alg».proof.Proof.Bounds

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atOut_R5 : (c : Dev nD) → (b : Ref sig .tc) → Buf (Elt F) ((c : Thread nD τ).loc b) := fun c b => atExit_R5 m c b

theorem exitArr_R5 (c : Dev nD) (w : Fin cfg5.W) :
    (dat_R5 (atIn_R5 m) c).arrAt w cfg5.N = atOut_R5 m c (Pipeline.arrRef spec5 w) := (atExit_R5_arr m c w).symm
theorem exitRest_R5 (c : Dev nD) : ∀ b, b ∉ Finset.univ.image (Pipeline.arrRef spec5) → atOut_R5 m c b = atIn_R5 m c b :=
  fun b hb => atExit_R5_of_ne m c b fun w e => hb (Finset.mem_image.mpr ⟨w, Finset.mem_univ _, e⟩)

-- Every array but the region's output is, after the region, as before it: an input array is only read, any other is not touched.
theorem kept_R5 (c : Dev nD) (b : Ref sig .tc) (hb : Pipeline.arrRef spec5 2 ≠ b) : atOut_R5 m c b = atIn_R5 m c b := by
  by_cases h0 : Pipeline.arrRef spec5 0 = b
  · subst h0
    exact (atExit_R5_arr m c 0).trans (((dat_R5 (atIn_R5 m) c).arrAt_in 0 rfl _).trans (dat_R5_A (atIn_R5 m) c 0))
  by_cases h1 : Pipeline.arrRef spec5 1 = b
  · subst h1
    exact (atExit_R5_arr m c 1).trans (((dat_R5 (atIn_R5 m) c).arrAt_in 1 rfl _).trans (dat_R5_A (atIn_R5 m) c 1))
  exact atExit_R5_of_ne m c b fun w => match w with | ⟨0, _⟩ => h0 | ⟨1, _⟩ => h1 | ⟨2, _⟩ => hb

theorem made_R5 (c : Dev nD) : atOut_R5 m c (Pipeline.arrRef spec5 2) = (dat_R5 (atIn_R5 m) c).arrAt 2 cfg5.N :=
  atExit_R5_arr m c 2

theorem rest_R5 (c : Dev nD) :
    (Pipeline.scopedRest (Ix := Unit) (Name := ℕ) (U := UR sig nD τ) (Lvl := ℕ) (Val := Elt F) spec5 c : sProp 𝕄)
      = iprop((∃ d, owns (c : Thread nD τ) acc_R5 fullShare d)
          ∗ Pipeline.scopedRestBut (Ix := Unit) (Name := ℕ) (U := UR sig nD τ) (Lvl := ℕ) (Val := Elt F) spec5 c [cc5_scratch0]) := by
  rw [scopedRest5_split]
  simp only [acc_R5, owns_whole]
  rfl

set_option backward.isDefEq.respectTransparency.types false in
def seg_R5 : Pipeline.RegionSeg (pcfgs (F := F)) adm (pdats m) () defs₀ 𝒱₀ L lv (5 : Fin 6) :=
  segOf m (5 : Fin 6) launch5 (atEntry_R5 m) (atExit_R5 m) (fun c => body_R5 (atIn_R5 m) c)
    (fun c => (pdats m (5 : Fin 6) c).share_full fun _ => rfl) (fun _ _ => rfl) (fun _ _ => rfl) (fun _ _ => rfl)
    (fun c => between_enter c acc_R5 _ _ (rest_R5 c) (sumAfter_R5 (atIn_R5 m) c))
    (fun c => between_leave c acc_R5 _ _ (rest_R5 c) (sumAfter_R5 (atIn_R5 m) c) (Fin.last cfg5.N).val (Nat.le_of_lt_succ (Fin.last cfg5.N).isLt))
    (exitArr_R5 m) (exitRest_R5 m)

end Cert.KernelIdeal.Hand
end
-- ==== Proof.Whole.lean ====
import proofs.«140595_j18622978196102_1_alg».proof.Proof.SegR0
import proofs.«140595_j18622978196102_1_alg».proof.Proof.SegR1
import proofs.«140595_j18622978196102_1_alg».proof.Proof.SegR2
import proofs.«140595_j18622978196102_1_alg».proof.Proof.SegR3
import proofs.«140595_j18622978196102_1_alg».proof.Proof.SegR4
import proofs.«140595_j18622978196102_1_alg».proof.Proof.SegR5
import proofs.«140595_j18622978196102_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev closing : Pipeline.HostSeg (Name := ℕ) (U := UR sig nD τ) (pcfgs (F := F)) defs₀ 𝒱₀ L lv :=
  Pipeline.HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (at6 m) (riding (F := F))

abbrev items : List (Pipeline.Seg (pcfgs (F := F)) adm (pdats m) () defs₀ 𝒱₀ L lv) :=
  [ .region (seg_R0 m), .region (seg_R1 m), .region (seg_R2 m), .region (seg_R3 m), .region (seg_R4 m), .region (seg_R5 m),
    .host (closing m) ]

theorem main_items (c : Dev nD) : main (F := F) c = Pipeline.Seg.run (items m) :=
  main_segs adm (pdats m) () 𝒱₀ L lv (closing m) (seg_R0 m) (seg_R1 m) (seg_R2 m) (seg_R3 m) (seg_R4 m) (seg_R5 m) rfl c

abbrev atEnd (c : Dev nD) : sProp 𝕄 :=
  iprop(StableHlo.held (c : Thread nD τ) (Pipeline.ucRefs τ sig) (at7 m c) ∗ ∃ r, prngReg c r)

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = at7 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (at0 m)) (Tₙ := atEnd m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m c) ∗ riding (F := F) c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = at7 m c b)
    (hfin := fun c s' => by
      iintro ⟨⟨Hh, -⟩, HSI⟩
      unfold StableHlo.held
      imodintro
      iapply (pointsTo_read_all (Pipeline.ucRefs τ sig) (fun b => (((c : Thread nD τ)).1, b)) (at7 m c) s')
      isplitl [Hh] <;> iassumption)
    (hQ := fun s h c => h c)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem at7_of_unwritten (c : Dev nD) (r : Ref sig .tc) (h : r ∉ hostOps6_W) : at7 m c r = at6 m c r :=
  StableHlo.after_of_writes_sub hostOps6 _ hostOps6_writes h

theorem at6_of_argument (c : Dev nD) (b : Ref sig .tc)
    (h0 : Pipeline.arrRef spec0 2 ≠ b) (h1 : Pipeline.arrRef spec1 2 ≠ b) (h2 : Pipeline.arrRef spec2 2 ≠ b)
    (h3 : Pipeline.arrRef spec3 2 ≠ b) (h4 : Pipeline.arrRef spec4 2 ≠ b) (h5 : Pipeline.arrRef spec5 2 ≠ b) :
    at6 m c b = m ((c : Thread nD τ).loc b) :=
  (kept_R5 m c b h5).trans <| (kept_R4 m c b h4).trans <| (kept_R3 m c b h3).trans <| (kept_R2 m c b h2).trans <|
    (kept_R1 m c b h1).trans <| (kept_R0 m c b h0).trans rfl

theorem run_result : θ_run defs (onTc (τ := τ) (main (F := F))) ⟨m, fun _ => 0, ρ⟩ (fun r => ∀ c : Dev nD,
      r.2.mem ((c.tc : Thread nD τ).loc main_v8) = at7 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_unscoped main_v8 (by decide)),
     (h c _ (mem_unscoped main_arg0 (by decide))).trans ((at7_of_unwritten m c main_arg0 (by decide)).trans
        (at6_of_argument m c main_arg0 (by decide) (by decide) (by decide) (by decide) (by decide) (by decide))),
     (h c _ (mem_unscoped main_arg1 (by decide))).trans ((at7_of_unwritten m c main_arg1 (by decide)).trans
        (at6_of_argument m c main_arg1 (by decide) (by decide) (by decide) (by decide) (by decide) (by decide))),
     (h c _ (mem_unscoped main_arg2 (by decide))).trans ((at7_of_unwritten m c main_arg2 (by decide)).trans
        (at6_of_argument m c main_arg2 (by decide) (by decide) (by decide) (by decide) (by decide) (by decide)))⟩)
    (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand
end
-- ==== Proof.Result.lean ====
import proofs.«140595_j18622978196102_1_alg».proof.Proof.ValueR0
import proofs.«140595_j18622978196102_1_alg».proof.Proof.ValueR1
import proofs.«140595_j18622978196102_1_alg».proof.Proof.ValueR2
import proofs.«140595_j18622978196102_1_alg».proof.Proof.ValueR3
import proofs.«140595_j18622978196102_1_alg».proof.Proof.ValueR4
import proofs.«140595_j18622978196102_1_alg».proof.Proof.ValueR5
import proofs.«140595_j18622978196102_1_alg».proof.Proof.Whole
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

variable (m : (ℓ : Loc nD τ sig) → Buf (Elt Ideal) ℓ)

abbrev argX (c : Dev nD) : Sq := m ((c.tc : Thread nD τ).loc main_arg0)
abbrev argWr (c : Dev nD) : Sq := m ((c.tc : Thread nD τ).loc main_arg1)
abbrev argWi (c : Dev nD) : Sq := m ((c.tc : Thread nD τ).loc main_arg2)

theorem rowReal (c : Dev nD) : at1 m c main_v0 = rowDot (argX m c) (argWr m c) :=
  (made_R0 m c).trans (out_R0 (atIn_R0 m) c)

theorem rowImag (c : Dev nD) : at2 m c main_v1 = rowDot (argX m c) (argWi m c) := by
  refine (made_R1 m c).trans ((out_R1 (atIn_R1 m) c).trans ?_)
  rw [show atIn_R1 m c (Pipeline.arrRef spec1 0) = argX m c from kept_R0 m c main_arg0 (by decide),
    show atIn_R1 m c (Pipeline.arrRef spec1 1) = argWi m c from kept_R0 m c main_arg2 (by decide)]

theorem rowReal2 (c : Dev nD) : at2 m c main_v0 = rowDot (argX m c) (argWr m c) :=
  (kept_R1 m c main_v0 (by decide)).trans (rowReal m c)

theorem colRR (c : Dev nD) : at3 m c main_v2 = colDot (argWr m c) (rowDot (argX m c) (argWr m c)) := by
  refine (made_R2 m c).trans ((out_R2 (atIn_R2 m) c).trans ?_)
  rw [show atIn_R2 m c (Pipeline.arrRef spec2 0) = argWr m c from
      (kept_R1 m c main_arg1 (by decide)).trans (kept_R0 m c main_arg1 (by decide)),
    show atIn_R2 m c (Pipeline.arrRef spec2 1) = rowDot (argX m c) (argWr m c) from rowReal2 m c]

theorem rowImag3 (c : Dev nD) : at3 m c main_v1 = rowDot (argX m c) (argWi m c) :=
  (kept_R2 m c main_v1 (by decide)).trans (rowImag m c)
theorem rowReal3 (c : Dev nD) : at3 m c main_v0 = rowDot (argX m c) (argWr m c) :=
  (kept_R2 m c main_v0 (by decide)).trans (rowReal2 m c)

theorem colII (c : Dev nD) : at4 m c main_v3 = colDot (argWi m c) (rowDot (argX m c) (argWi m c)) := by
  refine (made_R3 m c).trans ((out_R3 (atIn_R3 m) c).trans ?_)
  rw [show atIn_R3 m c (Pipeline.arrRef spec3 0) = argWi m c from
      (kept_R2 m c main_arg2 (by decide)).trans ((kept_R1 m c main_arg2 (by decide)).trans (kept_R0 m c main_arg2 (by decide))),
    show atIn_R3 m c (Pipeline.arrRef spec3 1) = rowDot (argX m c) (argWi m c) from rowImag3 m c]

theorem rowImag4 (c : Dev nD) : at4 m c main_v1 = rowDot (argX m c) (argWi m c) :=
  (kept_R3 m c main_v1 (by decide)).trans (rowImag3 m c)
theorem rowReal4 (c : Dev nD) : at4 m c main_v0 = rowDot (argX m c) (argWr m c) :=
  (kept_R3 m c main_v0 (by decide)).trans (rowReal3 m c)

theorem colRI (c : Dev nD) : at5 m c main_v4 = colDot (argWr m c) (rowDot (argX m c) (argWi m c)) := by
  refine (made_R4 m c).trans ((out_R4 (atIn_R4 m) c).trans ?_)
  rw [show atIn_R4 m c (Pipeline.arrRef spec4 0) = argWr m c from
      (kept_R3 m c main_arg1 (by decide)).trans ((kept_R2 m c main_arg1 (by decide)).trans
        ((kept_R1 m c main_arg1 (by decide)).trans (kept_R0 m c main_arg1 (by decide)))),
    show atIn_R4 m c (Pipeline.arrRef spec4 1) = rowDot (argX m c) (argWi m c) from rowImag4 m c]

theorem rowReal5 (c : Dev nD) : at5 m c main_v0 = rowDot (argX m c) (argWr m c) :=
  (kept_R4 m c main_v0 (by decide)).trans (rowReal4 m c)

theorem colIR (c : Dev nD) : at6 m c main_v5 = colDot (argWi m c) (rowDot (argX m c) (argWr m c)) := by
  refine (made_R5 m c).trans ((out_R5 (atIn_R5 m) c).trans ?_)
  rw [show atIn_R5 m c (Pipeline.arrRef spec5 0) = argWi m c from
      (kept_R4 m c main_arg2 (by decide)).trans ((kept_R3 m c main_arg2 (by decide)).trans ((kept_R2 m c main_arg2 (by decide)).trans
        ((kept_R1 m c main_arg2 (by decide)).trans (kept_R0 m c main_arg2 (by decide))))),
    show atIn_R5 m c (Pipeline.arrRef spec5 1) = rowDot (argX m c) (argWr m c) from rowReal5 m c]

theorem colRR6 (c : Dev nD) : at6 m c main_v2 = colDot (argWr m c) (rowDot (argX m c) (argWr m c)) :=
  (kept_R5 m c main_v2 (by decide)).trans ((kept_R4 m c main_v2 (by decide)).trans ((kept_R3 m c main_v2 (by decide)).trans (colRR m c)))
theorem colII6 (c : Dev nD) : at6 m c main_v3 = colDot (argWi m c) (rowDot (argX m c) (argWi m c)) :=
  (kept_R5 m c main_v3 (by decide)).trans ((kept_R4 m c main_v3 (by decide)).trans (colII m c))
theorem colRI6 (c : Dev nD) : at6 m c main_v4 = colDot (argWr m c) (rowDot (argX m c) (argWi m c)) :=
  (kept_R5 m c main_v4 (by decide)).trans (colRI m c)

def joined (X Wr Wi : Sq) : (⟨S4096x8192, .f32⟩ : BufTy).Contents (Elt Ideal) :=
  concatenate S4096x8192 1
    [⟨S4096x4096, subf (F := Ideal) (φ := .f32) (colDot Wr (rowDot X Wr)) (colDot Wi (rowDot X Wi))⟩,
     ⟨S4096x4096, addf (F := Ideal) (φ := .f32) (colDot Wr (rowDot X Wi)) (colDot Wi (rowDot X Wr))⟩]
    concatenates_S4096x4096_S4096x4096_S4096x8192_d1

theorem result_eq (c : Dev nD) : at7 m c main_v8 = joined (argX m c) (argWr m c) (argWi m c) := by
  have e : at7 m c main_v8 = concatenate S4096x8192 1
      [⟨S4096x4096, subf (F := Ideal) (φ := .f32) (at6 m c main_v2) (at6 m c main_v3)⟩,
       ⟨S4096x4096, addf (F := Ideal) (φ := .f32) (at6 m c main_v4) (at6 m c main_v5)⟩]
      concatenates_S4096x4096_S4096x4096_S4096x8192_d1 := by
    show StableHlo.after hostOps6 (at6 m c) (Proc.devRef .tc main_v8) = _
    after_results
  rw [e, colRR6, colII6, colRI6, colIR]
  rfl

end Cert.KernelIdeal.Hand
end
-- ==== Proof.RefProducts.lean ====
import proofs.«140595_j18622978196102_1_alg».proof.Proof.Spec
import proofs.«140595_j18622978196102_1_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

theorem hostDot_apply (Y0 Y1 : (⟨S4096x4096, .f32⟩ : BufTy).Contents (Elt Ideal)) (i : S4096x4096.Idx) :
    Host.dotGeneral (F := Ideal) (φ₁ := .f32) (φ₂ := .f32) dot_S4096x4096_S4096x4096_S4096x4096_1_0_0_1_n_n none Y0 Y1 i
      = ∑ k : Fin 4096, Y0 (lidx_main_v1 i k) * Y1 (ridx_main_v1 i k) := by
  simp only [Host.dotGeneral]
  rw [Ideal.dotGeneral_apply, ← Equiv.sum_comp (ValueIdx.contrEquiv1 dot_S4096x4096_S4096x4096_S4096x4096_1_0_0_1_n_n 4096 rfl rfl).symm]
  refine Finset.sum_congr rfl fun k _ => ?_
  have hk := ValueIdx.contrEquiv1_symm_val dot_S4096x4096_S4096x4096_S4096x4096_1_0_0_1_n_n 4096 rfl rfl k
  have el : dot_S4096x4096_S4096x4096_S4096x4096_1_0_0_1_n_n.lhsIdx i ((ValueIdx.contrEquiv1 dot_S4096x4096_S4096x4096_S4096x4096_1_0_0_1_n_n 4096 rfl rfl).symm k) = lidx_main_v1 i k :=
    funext fun a => Fin.ext (by
      match a with
      | ⟨0, _⟩ => exact lhs_main_v1_0 _ _
      | ⟨1, _⟩ => exact (lhs_main_v1_1 _ _).trans hk)
  have er : dot_S4096x4096_S4096x4096_S4096x4096_1_0_0_1_n_n.rhsIdx i ((ValueIdx.contrEquiv1 dot_S4096x4096_S4096x4096_S4096x4096_1_0_0_1_n_n 4096 rfl rfl).symm k) = ridx_main_v1 i k :=
    funext fun a => Fin.ext (by
      match a with
      | ⟨0, _⟩ => exact (rhs_main_v1_0 _ _).trans hk
      | ⟨1, _⟩ => exact rhs_main_v1_1 _ _)
  rw [el, er]

theorem transpose_at (W : (⟨S4096x4096, .f32⟩ : BufTy).Contents (Elt Ideal)) (j : S4096x4096.Idx) :
    (transpose S4096x4096 [1, 0] W transposes_S4096x4096_S4096x4096_1_0 : (⟨S4096x4096, .f32⟩ : BufTy).Contents (Elt Ideal)) j = W (idx_main_v0 j) :=
  val_main_v0_apply (F := Ideal) W j

theorem hostDot_transpose_right (X W : (⟨S4096x4096, .f32⟩ : BufTy).Contents (Elt Ideal)) :
    Host.dotGeneral (F := Ideal) (φ₁ := .f32) (φ₂ := .f32) dot_S4096x4096_S4096x4096_S4096x4096_1_0_0_1_n_n none X
        (transpose S4096x4096 [1, 0] W transposes_S4096x4096_S4096x4096_1_0 : (⟨S4096x4096, .f32⟩ : BufTy).Contents (Elt Ideal))
      = rowDot X W := by
  funext i
  rw [hostDot_apply]
  show _ = rowDotAt X W ⟨(i 0).val, (i 0).isLt⟩ ⟨(i 1).val, (i 1).isLt⟩
  unfold rowDotAt
  refine Finset.sum_congr rfl fun k _ => ?_
  rw [transpose_at]
  have e1 : lidx_main_v1 i k = ix2 (⟨(i 0).val, (i 0).isLt⟩ : Fin 4096) k :=
    funext fun a => Fin.ext (by match a with | ⟨0, _⟩ => rfl | ⟨1, _⟩ => rfl)
  have e2 : idx_main_v0 (ridx_main_v1 i k) = ix2 (⟨(i 1).val, (i 1).isLt⟩ : Fin 4096) k :=
    funext fun a => Fin.ext (by match a with | ⟨0, _⟩ => rfl | ⟨1, _⟩ => rfl)
  rw [e1, e2]

theorem hostDot_transpose_left (W R : (⟨S4096x4096, .f32⟩ : BufTy).Contents (Elt Ideal)) :
    Host.dotGeneral (F := Ideal) (φ₁ := .f32) (φ₂ := .f32) dot_S4096x4096_S4096x4096_S4096x4096_1_0_0_1_n_n none
        (transpose S4096x4096 [1, 0] W transposes_S4096x4096_S4096x4096_1_0 : (⟨S4096x4096, .f32⟩ : BufTy).Contents (Elt Ideal)) R
      = colDot W R := by
  funext i
  rw [hostDot_apply]
  show _ = colDotAt W R ⟨(i 0).val, (i 0).isLt⟩ ⟨(i 1).val, (i 1).isLt⟩
  unfold colDotAt
  refine Finset.sum_congr rfl fun k _ => ?_
  rw [transpose_at]
  have e1 : idx_main_v0 (lidx_main_v1 i k) = ix2 k (⟨(i 0).val, (i 0).isLt⟩ : Fin 4096) :=
    funext fun a => Fin.ext (by match a with | ⟨0, _⟩ => rfl | ⟨1, _⟩ => rfl)
  have e2 : ridx_main_v1 i k = ix2 k (⟨(i 1).val, (i 1).isLt⟩ : Fin 4096) :=
    funext fun a => Fin.ext (by match a with | ⟨0, _⟩ => rfl | ⟨1, _⟩ => rfl)
  rw [e1, e2]

end Cert.ReferenceIdeal.RefValue

end
-- ==== Proof.lean ====
/-
  A complex linear transform of a 4096 × 4096 array x by real weights W_r, W_i: the row pass R_r = x · W_rᵀ,
  R_i = x · W_iᵀ, the column pass C_r = W_rᵀ · R_r − W_iᵀ · R_i, C_i = W_rᵀ · R_i + W_iᵀ · R_r, the result [C_r | C_i].
  The kernel makes the six products block by block, four blocks of 1024 terms added one after another onto zero;
  over the extended reals a format change is the identity and a sum may be grouped freely, so each is the
  reference's one sum of 4096 terms. Two kernels serve the six regions: what is proved of a kernel is proved once.
-/
import proofs.«140595_j18622978196102_1_alg».proof.Defs
import proofs.«140595_j18622978196102_1_alg».proof.Proof.Gen.Kernel
import proofs.«140595_j18622978196102_1_alg».proof.Proof.Gen.KernelIdeal
import proofs.«140595_j18622978196102_1_alg».proof.Proof.Gen.ReferenceIdeal
import proofs.«140595_j18622978196102_1_alg».proof.Proof.Gen.Pre_finite_inputs
import proofs.«140595_j18622978196102_1_alg».proof.Proof.Bits.Whole
import proofs.«140595_j18622978196102_1_alg».proof.Proof.Result
import proofs.«140595_j18622978196102_1_alg».proof.Proof.RefProducts
import Idealize.ShloMosaic.Adequacy
import Idealize.ShloMosaic.Init

noncomputable section

open Idealize.ShloMosaic Idealize.ShloMosaic.TcCoe Idealize.SL.Sem

namespace Cert.ReferenceIdeal.RefValue

open Cert.ReferenceIdeal Cert.ReferenceIdeal.Gen Cert.Spec

theorem joined_eq (X Wr Wi : (⟨S4096x4096, .f32⟩ : BufTy).Contents (Elt Ideal)) :
    Cert.ReferenceIdeal.Read.val_main_v14 (F := Ideal) X Wr Wi = Cert.KernelIdeal.Hand.joined X Wr Wi := by
  unfold Cert.ReferenceIdeal.Read.val_main_v14 Cert.ReferenceIdeal.Read.val_main_v8 Cert.ReferenceIdeal.Read.val_main_v13
    Cert.ReferenceIdeal.Read.val_main_v5 Cert.ReferenceIdeal.Read.val_main_v7 Cert.ReferenceIdeal.Read.val_main_v10
    Cert.ReferenceIdeal.Read.val_main_v12 Cert.ReferenceIdeal.Read.val_main_v4 Cert.ReferenceIdeal.Read.val_main_v6
    Cert.ReferenceIdeal.Read.val_main_v9 Cert.ReferenceIdeal.Read.val_main_v11 Cert.ReferenceIdeal.Read.val_main_v1
    Cert.ReferenceIdeal.Read.val_main_v3 Cert.ReferenceIdeal.Read.val_main_v0 Cert.ReferenceIdeal.Read.val_main_v2
  rw [hostDot_transpose_right X Wr, hostDot_transpose_right X Wi, hostDot_transpose_left Wr (rowDot X Wr), hostDot_transpose_left Wi (rowDot X Wi),
    hostDot_transpose_left Wr (rowDot X Wi), hostDot_transpose_left Wi (rowDot X Wr)]
  rfl

end Cert.ReferenceIdeal.RefValue

namespace Cert.Proof

theorem frame_kernel : Cert.frame_Kernel :=
  fun m ρ _ => Cert.Kernel.Hand.frame_all (F := Bits) m ρ

theorem frame_ideal : Cert.frame_KernelIdeal :=
  fun m ρ _ => Cert.KernelIdeal.Hand.frame_all (F := Ideal) m ρ

theorem frame_reference : Cert.frame_ReferenceIdeal :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.joined (Cert.KernelIdeal.Hand.argX m c) (Cert.KernelIdeal.Hand.argWr m c) (Cert.KernelIdeal.Hand.argWi m c), ?_, ?_⟩
  · exact (θ_run Cert.KernelIdeal.defs _ _).mono
      (fun _ h c => ⟨(h c).1.trans (Cert.KernelIdeal.Hand.result_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v14_eq]
    exact Cert.ReferenceIdeal.RefValue.joined_eq _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
